-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S1x1024 : Shape := ⟨2, ![1, 1024]⟩
abbrev S512x1024 : Shape := ⟨2, ![512, 1024]⟩
abbrev S1x1024x1024 : Shape := ⟨3, ![1, 1024, 1024]⟩
abbrev S1x256x1024 : Shape := ⟨3, ![1, 256, 1024]⟩
abbrev S1024x1 : Shape := ⟨2, ![1024, 1]⟩
abbrev S256x1024 : Shape := ⟨2, ![256, 1024]⟩
abbrev S1024x256 : Shape := ⟨2, ![1024, 256]⟩

abbrev nBuf : Space → Nat
  | .hbm => 12
  | .vmem => 30
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .bf16⟩
  | .hbm, ⟨6, _⟩ => ⟨S1024x1024, .bf16⟩
  | .hbm, ⟨7, _⟩ => ⟨S4x2048x1024, .bf16⟩
  | .hbm, ⟨8, _⟩ => ⟨S4x2048x1024, .bf16⟩
  | .hbm, ⟨9, _⟩ => ⟨S4x2048x1024, .bf16⟩
  | .hbm, ⟨10, _⟩ => ⟨S4x1x1024, .f32⟩
  | .hbm, ⟨11, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024x1024, .bf16⟩
  | .local _ .vmem, ⟨16, _⟩ => ⟨S1x1024x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x1024, .bf16⟩
  | .local _ .vmem, ⟨21, _⟩ => ⟨S1x1024x1024, .f32⟩
  | .local _ .vmem, ⟨22, _⟩ => ⟨S1x1024x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1024x1024, .f32⟩
  | .local _ .vmem, ⟨26, _⟩ => ⟨S1x1024x1024, .f32⟩
  | .local _ .vmem, ⟨27, _⟩ => ⟨S1024x1, .f32⟩
  | .local _ .vmem, ⟨28, _⟩ => ⟨S1024x1, .f32⟩
  | .local _ .vmem, ⟨29, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_scratch0 : Ref sig .tc := ⟨.vmem, 27, rfl⟩
abbrev cc1_scratch1 : Ref sig .tc := ⟨.vmem, 28, rfl⟩
abbrev cc1_scratch2 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v38 : BitVec 1 := Scalar.cmpi .eq arg1 c3_i32
  let v39 : BitVec 32 := Scalar.extui v38
  let c0_i32_24 : BitVec 32 := 0#32
  let v40 : BitVec 1 := Scalar.cmpi .ne v39 c0_i32_24
  v40

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨3, ![4, 2, 8], ![false, false, false]⟩

def k1_cond2 (i : grid1.Coords) : BitVec 1 :=
  let arg2 : BitVec 32 := BitVec.ofNat 32 (i 2).val
  let c7_i32 : BitVec 32 := 7#32
  let v41 : BitVec 1 := Scalar.cmpi .eq arg2 c7_i32
  let v42 : BitVec 32 := Scalar.extui v41
  let c0_i32_25 : BitVec 32 := 0#32
  let v43 : BitVec 1 := Scalar.cmpi .ne v42 c0_i32_25
  v43

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S1x1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  reduces_S512x1024_S1024 : S512x1024.Reduces [0] S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S1024x256_S1024 : S1024x256.Reduces [1] S1024
  shapeCasts_S1024_S1024x1 : S1024.ShapeCasts S1024x1
  broadcasts_S1024x1_S1024x256 : S1024x1.Broadcasts S1024x256
  broadcasts_S1024x1_S1024x1024 : S1024x1.Broadcasts S1024x1024
  shapeCasts_S1x1x1024_S1024 : S1x1x1024.ShapeCasts S1024
  broadcasts_S1x1024_S1024x1024 : S1x1024.Broadcasts S1024x1024
  shapeCasts_S1024x1024_S1x1024x1024 : S1024x1024.ShapeCasts S1x1024x1024
  dot_S512x1024_S1024x1024_S512x1024_1_1_0_0_n_n_wf : DotDims.WF S512x1024 S1024x1024 S512x1024 [1] [1] [0] [0] [] []
  dot_S1024x1024_S256x1024_S1024x256_1_1_0_0_n_n_wf : DotDims.WF S1024x1024 S256x1024 S1024x256 [1] [1] [0] [0] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S4x2048x1024.size a
  hwx0_5 : ∀ i : grid0.Coords, EltTy.bits .bf16 = 32 ∨ (Rect.block (s := S4x2048x1024) S1x512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S4x2048x1024.size a
  hwx0_6 : ∀ i : grid0.Coords, EltTy.bits .bf16 = 32 ∨ (Rect.block (s := S4x2048x1024) S1x512x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S4x2048x1024.size a
  hwx0_7 : ∀ i : grid0.Coords, EltTy.bits .bf16 = 32 ∨ (Rect.block (s := S4x2048x1024) S1x512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1024.size a ≤ S4x1x1024.size a
  hwx0_8 : ∀ i : grid0.Coords, EltTy.bits .f32 = 32 ∨ (Rect.block (s := S4x1x1024) S1x1x1024.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .bf16 = 32 ∨ (Rect.block (s := S4x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1024.size a ≤ S4x2048x1024.size a
  hwx1_1 : ∀ i : grid1.Coords, EltTy.bits .bf16 = 32 ∨ (Rect.block (s := S4x2048x1024) S1x256x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1024.size a ≤ S4x2048x1024.size a
  hwx1_2 : ∀ i : grid1.Coords, EltTy.bits .bf16 = 32 ∨ (Rect.block (s := S4x2048x1024) S1x256x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .f32 = 32 ∨ (Rect.block (s := S4x2048x1024) S1x1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1024.size a ≤ S4x1x1024.size a
  hwx1_4 : ∀ i : grid1.Coords, EltTy.bits .f32 = 32 ∨ (Rect.block (s := S4x1x1024) S1x1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x1024.size a ≤ S4x2048x1024.size a
  hwx1_5 : ∀ i : grid1.Coords, EltTy.bits .f32 = 32 ∨ (Rect.block (s := S4x2048x1024) S1x1024x1024.size (cc1_transform_5 i) (hinb1_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S1x512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S1x512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_2) S1x512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_3) S1x1x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v2_0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1x256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S1x256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_3) S1x1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S2048x2048 : Shape := ⟨2, ![2048, 2048]⟩
abbrev S1x2048x2048 : Shape := ⟨3, ![1, 2048, 2048]⟩

abbrev nBuf : Space → Nat
  | .hbm => 56
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S4x2048x1024, .f32⟩
  | .hbm, ⟨6, _⟩ => ⟨S1x1x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x2048, .f32⟩
  | .hbm, ⟨14, _⟩ => ⟨S_, .f32⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S4x2048x1, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S4x2048x1, .f32⟩
  | .hbm, ⟨29, _⟩ => ⟨S4x2048x2048, .f32⟩
  | .hbm, ⟨30, _⟩ => ⟨S4x2048x2048, .f32⟩
  | .hbm, ⟨31, _⟩ => ⟨S2048x2048, .i32⟩
  | .hbm, ⟨32, _⟩ => ⟨S2048x2048, .i32⟩
  | .hbm, ⟨33, _⟩ => ⟨S_, .i32⟩
  | .hbm, ⟨34, _⟩ => ⟨S2048x2048, .i32⟩
  | .hbm, ⟨35, _⟩ => ⟨S2048x2048, .i32⟩
  | .hbm, ⟨36, _⟩ => ⟨S2048x2048, .i1⟩
  | .hbm, ⟨37, _⟩ => ⟨S2048x2048, .f32⟩
  | .hbm, ⟨38, _⟩ => ⟨S1x2048x2048, .f32⟩
  | .hbm, ⟨39, _⟩ => ⟨S_, .f32⟩
  | .hbm, ⟨40, _⟩ => ⟨S1x2048x2048, .f32⟩
  | .hbm, ⟨41, _⟩ => ⟨S1x2048x2048, .f32⟩
  | .hbm, ⟨42, _⟩ => ⟨S4x2048x2048, .f32⟩
  | .hbm, ⟨43, _⟩ => ⟨S4x2048x2048, .f32⟩
  | .hbm, ⟨44, _⟩ => ⟨S_, .f32⟩
  | .hbm, ⟨45, _⟩ => ⟨S4x2048, .f32⟩
  | .hbm, ⟨46, _⟩ => ⟨S4x2048x1, .f32⟩
  | .hbm, ⟨47, _⟩ => ⟨S_, .f32⟩
  | .hbm, ⟨48, _⟩ => ⟨S4x2048x1, .f32⟩
  | .hbm, ⟨49, _⟩ => ⟨S4x2048x1, .f32⟩
  | .hbm, ⟨50, _⟩ => ⟨S_, .f32⟩
  | .hbm, ⟨51, _⟩ => ⟨S4x2048x1, .f32⟩
  | .hbm, ⟨52, _⟩ => ⟨S4x2048x1, .f32⟩
  | .hbm, ⟨53, _⟩ => ⟨S4x2048x2048, .f32⟩
  | .hbm, ⟨54, _⟩ => ⟨S4x2048x2048, .f32⟩
  | .hbm, ⟨55, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S_S1x2048x2048 : S_.BroadcastsInDim S1x2048x2048 (![] : Fin 0 → Fin S1x2048x2048.rank)
  bcast_S1x2048x2048_S4x2048x2048_0_1_2 : S1x2048x2048.BroadcastsInDim S4x2048x2048 (![0, 1, 2] : Fin 3 → Fin S4x2048x2048.rank)
  bcast_S_S4x2048x1 : S_.BroadcastsInDim S4x2048x1 (![] : Fin 0 → Fin S4x2048x1.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KR0Defs.lean ====
import proofs.«401480_j41566693490738_3_alg».proof.Proof.Gen.Kernel.Launch
import proofs.«401480_j41566693490738_3_alg».proof.Proof.Gen.Kernel.Skeleton
import proofs.«401480_j41566693490738_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel

theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x1024 .f32 := win0_8.stage (cfg0.slots t 8)
abbrev hs0_8 (t : Fin cfg0.N) : (ms0_8 t).IsWhole := hstage0_8 ((cfg0.slots t 8).cast nbuf0_8)

abbrev scM0_0 : Memref sig .tc .vmem S1x1024 .f32 := Memref.whole cc0_scratch0

abbrev VO0_5 : View sig .tc .vmem S1x512x1024 .bf16 := (Memref.whole cc0_stg5_0 : Memref sig .tc .vmem S1x512x1024 .bf16).view
abbrev VO0_6 : View sig .tc .vmem S1x512x1024 .bf16 := (Memref.whole cc0_stg6_0 : Memref sig .tc .vmem S1x512x1024 .bf16).view
abbrev VO0_7 : View sig .tc .vmem S1x512x1024 .bf16 := (Memref.whole cc0_stg7_0 : Memref sig .tc .vmem S1x512x1024 .bf16).view
abbrev VO0_8 : View sig .tc .vmem S1x1x1024 .f32 := (Memref.whole cc0_stg8_0 : Memref sig .tc .vmem S1x1x1024 .f32).view
abbrev VS0_0 : View sig .tc .vmem S1x1024 .f32 := scM0_0.view

end Region0

/-- The buffers one call of the first body receives, each whole. -/
structure Bufs0 where
  a2 : Memref sig .tc .vmem S1x512x1024 .f32
  h2 : a2.IsWhole
  a3 : Memref sig .tc .vmem S1024x1024 .bf16
  h3 : a3.IsWhole
  a4 : Memref sig .tc .vmem S1024 .f32
  h4 : a4.IsWhole
  a5 : Memref sig .tc .vmem S1024x1024 .bf16
  h5 : a5.IsWhole
  a6 : Memref sig .tc .vmem S1024 .f32
  h6 : a6.IsWhole
  a7 : Memref sig .tc .vmem S1x512x1024 .bf16
  h7 : a7.IsWhole
  a8 : Memref sig .tc .vmem S1x512x1024 .bf16
  h8 : a8.IsWhole
  a9 : Memref sig .tc .vmem S1x512x1024 .bf16
  h9 : a9.IsWhole
  a10 : Memref sig .tc .vmem S1x1x1024 .f32
  h10 : a10.IsWhole
  a11 : Memref sig .tc .vmem S1x1024 .f32
  h11 : a11.IsWhole

/-- The five blocks one call of the first body reads. -/
structure Ins0 (F : FTy → Type) [FloatOps F] where
  x0 : Vec F S1x512x1024 .f32
  x1 : Vec F S1024x1024 .bf16
  x2 : Vec F S1024 .f32
  x3 : Vec F S1024x1024 .bf16
  x4 : Vec F S1024 .f32

end Cert.Kernel.Hand

end
-- ==== Proof.KR0RunA.lean ====
import proofs.«401480_j41566693490738_3_alg».proof.Proof.KR0Defs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_A (c : Dev nD) (i : grid0.Coords) (b : Bufs0) (x : Ins0 F) (hc0 : cond0_0 i) (hc1 : ¬cond0_1 i) :
    Σ' (L5 : List (View.Piece (Elt F) S1x512x1024 .bf16)) (L6 : List (View.Piece (Elt F) S1x512x1024 .bf16)) (L7 : List (View.Piece (Elt F) S1x512x1024 .bf16)), { LS0 : List (View.Piece (Elt F) S1x1024 .f32) //
      ∀ (xi8 : Vec F S1x1x1024 .f32) (E : Set ℕ) (K : PUnit → sProp 𝕄),
        iprop(owns (c : Thread nD τ) b.a2 fullShare x.x0 ∗ owns (c : Thread nD τ) b.a3 fullShare x.x1 ∗ owns (c : Thread nD τ) b.a4 fullShare x.x2 ∗ owns (c : Thread nD τ) b.a5 fullShare x.x3 ∗ owns (c : Thread nD τ) b.a6 fullShare x.x4
            ∗ (∃ d, owns (c : Thread nD τ) b.a7 fullShare d) ∗ (∃ d, owns (c : Thread nD τ) b.a8 fullShare d) ∗ (∃ d, owns (c : Thread nD τ) b.a9 fullShare d) ∗ owns (c : Thread nD τ) b.a10 fullShare xi8 ∗ (∃ d, owns (c : Thread nD τ) b.a11 fullShare d)
            ∗ (iprop(owns (c : Thread nD τ) b.a2 fullShare x.x0 ∗ owns (c : Thread nD τ) b.a3 fullShare x.x1 ∗ owns (c : Thread nD τ) b.a4 fullShare x.x2 ∗ owns (c : Thread nD τ) b.a5 fullShare x.x3 ∗ owns (c : Thread nD τ) b.a6 fullShare x.x4
                ∗ (∃ f, b.a7.view.loc (c : Thread nD τ) ↦[b.a7.view.set]{fullShare} b.a7.view.writes (Elt F) f L5) ∗ (∃ f, b.a8.view.loc (c : Thread nD τ) ↦[b.a8.view.set]{fullShare} b.a8.view.writes (Elt F) f L6) ∗ (∃ f, b.a9.view.loc (c : Thread nD τ) ↦[b.a9.view.set]{fullShare} b.a9.view.writes (Elt F) f L7) ∗ owns (c : Thread nD τ) b.a10 fullShare xi8 ∗ (∃ f, b.a11.view.loc (c : Thread nD τ) ↦[b.a11.view.set]{fullShare} b.a11.view.writes (Elt F) f LS0)) -∗ K ⟨⟩))
          ⊢ wp frame (wpE (defs₀ (F := F)) Variants.none c none) E (cc0__qk_proj_kernel i b.a2 b.h2 b.a3 b.h3 b.a4 b.h4 b.a5 b.h5 b.a6 b.h6 b.a7 b.h7 b.a8 b.h8 b.a9 b.h9 b.a10 b.h10 b.a11 b.h11) K } := by
  refine ⟨?_, ?_, ?_, ?_, fun xi8 E K => ?run⟩
  case run =>
    simp only [cc0__qk_proj_kernel_eq_skeleton]; unfold cc0__qk_proj_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%ds0, %fs0, -, HS0⟩, Hk⟩
    obtain rfl := b.h2.eq_unread hf0; obtain rfl := b.h3.eq_unread hf1; obtain rfl := b.h4.eq_unread hf2; obtain rfl := b.h5.eq_unread hf3; obtain rfl := b.h6.eq_unread hf4
    obtain rfl := b.h10.eq_unread hf8
    sl_exec (disch := first | exact hc0 | exact hc1)
    sl_step
    iapply Hk
    isplitl [H0]
    · iexists _; isplitr; · ipureintro; exact b.h2.read_unread _
      iexact H0
    isplitl [H1]
    · iexists _; isplitr; · ipureintro; exact b.h3.read_unread _
      iexact H1
    isplitl [H2]
    · iexists _; isplitr; · ipureintro; exact b.h4.read_unread _
      iexact H2
    isplitl [H3]
    · iexists _; isplitr; · ipureintro; exact b.h5.read_unread _
      iexact H3
    isplitl [H4]
    · iexists _; isplitr; · ipureintro; exact b.h6.read_unread _
      iexact H4
    isplitl [H5]; · iexists _; iexact H5
    isplitl [H6]; · iexists _; iexact H6
    isplitl [H7]; · iexists _; iexact H7
    isplitl [H8]
    · iexists _; isplitr; · ipureintro; exact b.h10.read_unread _
      iexact H8
    iexists _; iexact HS0

end Cert.Kernel.Hand

end
-- ==== Proof.KR0RunB.lean ====
import proofs.«401480_j41566693490738_3_alg».proof.Proof.KR0Defs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_B (c : Dev nD) (i : grid0.Coords) (b : Bufs0) (x : Ins0 F) (hc0 : ¬cond0_0 i) (hc1 : ¬cond0_1 i) (xs0 : Vec F S1x1024 .f32) :
    Σ' (L5 : List (View.Piece (Elt F) S1x512x1024 .bf16)) (L6 : List (View.Piece (Elt F) S1x512x1024 .bf16)) (L7 : List (View.Piece (Elt F) S1x512x1024 .bf16)), { LS0 : List (View.Piece (Elt F) S1x1024 .f32) //
      ∀ (xi8 : Vec F S1x1x1024 .f32) (E : Set ℕ) (K : PUnit → sProp 𝕄),
        iprop(owns (c : Thread nD τ) b.a2 fullShare x.x0 ∗ owns (c : Thread nD τ) b.a3 fullShare x.x1 ∗ owns (c : Thread nD τ) b.a4 fullShare x.x2 ∗ owns (c : Thread nD τ) b.a5 fullShare x.x3 ∗ owns (c : Thread nD τ) b.a6 fullShare x.x4
            ∗ (∃ d, owns (c : Thread nD τ) b.a7 fullShare d) ∗ (∃ d, owns (c : Thread nD τ) b.a8 fullShare d) ∗ (∃ d, owns (c : Thread nD τ) b.a9 fullShare d) ∗ owns (c : Thread nD τ) b.a10 fullShare xi8 ∗ owns (c : Thread nD τ) b.a11 fullShare xs0
            ∗ (iprop(owns (c : Thread nD τ) b.a2 fullShare x.x0 ∗ owns (c : Thread nD τ) b.a3 fullShare x.x1 ∗ owns (c : Thread nD τ) b.a4 fullShare x.x2 ∗ owns (c : Thread nD τ) b.a5 fullShare x.x3 ∗ owns (c : Thread nD τ) b.a6 fullShare x.x4
                ∗ (∃ f, b.a7.view.loc (c : Thread nD τ) ↦[b.a7.view.set]{fullShare} b.a7.view.writes (Elt F) f L5) ∗ (∃ f, b.a8.view.loc (c : Thread nD τ) ↦[b.a8.view.set]{fullShare} b.a8.view.writes (Elt F) f L6) ∗ (∃ f, b.a9.view.loc (c : Thread nD τ) ↦[b.a9.view.set]{fullShare} b.a9.view.writes (Elt F) f L7) ∗ owns (c : Thread nD τ) b.a10 fullShare xi8 ∗ (∃ f, b.a11.view.loc (c : Thread nD τ) ↦[b.a11.view.set]{fullShare} b.a11.view.writes (Elt F) f LS0)) -∗ K ⟨⟩))
          ⊢ wp frame (wpE (defs₀ (F := F)) Variants.none c none) E (cc0__qk_proj_kernel i b.a2 b.h2 b.a3 b.h3 b.a4 b.h4 b.a5 b.h5 b.a6 b.h6 b.a7 b.h7 b.a8 b.h8 b.a9 b.h9 b.a10 b.h10 b.a11 b.h11) K } := by
  refine ⟨?_, ?_, ?_, ?_, fun xi8 E K => ?run⟩
  case run =>
    simp only [cc0__qk_proj_kernel_eq_skeleton]; unfold cc0__qk_proj_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%fs0, %hfs0, HS0⟩, Hk⟩
    obtain rfl := b.h2.eq_unread hf0; obtain rfl := b.h3.eq_unread hf1; obtain rfl := b.h4.eq_unread hf2; obtain rfl := b.h5.eq_unread hf3; obtain rfl := b.h6.eq_unread hf4
    obtain rfl := b.h10.eq_unread hf8; obtain rfl := b.h11.eq_unread hfs0
    sl_exec (disch := first | exact hc0 | exact hc1)
    sl_step
    iapply Hk
    isplitl [H0]
    · iexists _; isplitr; · ipureintro; exact b.h2.read_unread _
      iexact H0
    isplitl [H1]
    · iexists _; isplitr; · ipureintro; exact b.h3.read_unread _
      iexact H1
    isplitl [H2]
    · iexists _; isplitr; · ipureintro; exact b.h4.read_unread _
      iexact H2
    isplitl [H3]
    · iexists _; isplitr; · ipureintro; exact b.h5.read_unread _
      iexact H3
    isplitl [H4]
    · iexists _; isplitr; · ipureintro; exact b.h6.read_unread _
      iexact H4
    isplitl [H5]; · iexists _; iexact H5
    isplitl [H6]; · iexists _; iexact H6
    isplitl [H7]; · iexists _; iexact H7
    isplitl [H8]
    · iexists _; isplitr; · ipureintro; exact b.h10.read_unread _
      iexact H8
    iexists _; iexact HS0

end Cert.Kernel.Hand

end
-- ==== Proof.KR0RunC.lean ====
import proofs.«401480_j41566693490738_3_alg».proof.Proof.KR0Defs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_C (c : Dev nD) (i : grid0.Coords) (b : Bufs0) (x : Ins0 F) (hc0 : ¬cond0_0 i) (hc1 : cond0_1 i) (xs0 : Vec F S1x1024 .f32) :
    Σ' (L5 : List (View.Piece (Elt F) S1x512x1024 .bf16)) (L6 : List (View.Piece (Elt F) S1x512x1024 .bf16)) (L7 : List (View.Piece (Elt F) S1x512x1024 .bf16)) (L8 : List (View.Piece (Elt F) S1x1x1024 .f32)), { LS0 : List (View.Piece (Elt F) S1x1024 .f32) //
      ∀ (E : Set ℕ) (K : PUnit → sProp 𝕄),
        iprop(owns (c : Thread nD τ) b.a2 fullShare x.x0 ∗ owns (c : Thread nD τ) b.a3 fullShare x.x1 ∗ owns (c : Thread nD τ) b.a4 fullShare x.x2 ∗ owns (c : Thread nD τ) b.a5 fullShare x.x3 ∗ owns (c : Thread nD τ) b.a6 fullShare x.x4
            ∗ (∃ d, owns (c : Thread nD τ) b.a7 fullShare d) ∗ (∃ d, owns (c : Thread nD τ) b.a8 fullShare d) ∗ (∃ d, owns (c : Thread nD τ) b.a9 fullShare d) ∗ (∃ d, owns (c : Thread nD τ) b.a10 fullShare d) ∗ owns (c : Thread nD τ) b.a11 fullShare xs0
            ∗ (iprop(owns (c : Thread nD τ) b.a2 fullShare x.x0 ∗ owns (c : Thread nD τ) b.a3 fullShare x.x1 ∗ owns (c : Thread nD τ) b.a4 fullShare x.x2 ∗ owns (c : Thread nD τ) b.a5 fullShare x.x3 ∗ owns (c : Thread nD τ) b.a6 fullShare x.x4
                ∗ (∃ f, b.a7.view.loc (c : Thread nD τ) ↦[b.a7.view.set]{fullShare} b.a7.view.writes (Elt F) f L5) ∗ (∃ f, b.a8.view.loc (c : Thread nD τ) ↦[b.a8.view.set]{fullShare} b.a8.view.writes (Elt F) f L6) ∗ (∃ f, b.a9.view.loc (c : Thread nD τ) ↦[b.a9.view.set]{fullShare} b.a9.view.writes (Elt F) f L7) ∗ (∃ f, b.a10.view.loc (c : Thread nD τ) ↦[b.a10.view.set]{fullShare} b.a10.view.writes (Elt F) f L8) ∗ (∃ f, b.a11.view.loc (c : Thread nD τ) ↦[b.a11.view.set]{fullShare} b.a11.view.writes (Elt F) f LS0)) -∗ K ⟨⟩))
          ⊢ wp frame (wpE (defs₀ (F := F)) Variants.none c none) E (cc0__qk_proj_kernel i b.a2 b.h2 b.a3 b.h3 b.a4 b.h4 b.a5 b.h5 b.a6 b.h6 b.a7 b.h7 b.a8 b.h8 b.a9 b.h9 b.a10 b.h10 b.a11 b.h11) K } := by
  refine ⟨?_, ?_, ?_, ?_, ?_, fun E K => ?run⟩
  case run =>
    simp only [cc0__qk_proj_kernel_eq_skeleton]; unfold cc0__qk_proj_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%fs0, %hfs0, HS0⟩, Hk⟩
    obtain rfl := b.h2.eq_unread hf0; obtain rfl := b.h3.eq_unread hf1; obtain rfl := b.h4.eq_unread hf2; obtain rfl := b.h5.eq_unread hf3; obtain rfl := b.h6.eq_unread hf4
    obtain rfl := b.h11.eq_unread hfs0
    sl_exec (disch := first | exact hc0 | exact hc1)
    sl_step
    iapply Hk
    isplitl [H0]
    · iexists _; isplitr; · ipureintro; exact b.h2.read_unread _
      iexact H0
    isplitl [H1]
    · iexists _; isplitr; · ipureintro; exact b.h3.read_unread _
      iexact H1
    isplitl [H2]
    · iexists _; isplitr; · ipureintro; exact b.h4.read_unread _
      iexact H2
    isplitl [H3]
    · iexists _; isplitr; · ipureintro; exact b.h5.read_unread _
      iexact H3
    isplitl [H4]
    · iexists _; isplitr; · ipureintro; exact b.h6.read_unread _
      iexact H4
    isplitl [H5]; · iexists _; iexact H5
    isplitl [H6]; · iexists _; iexact H6
    isplitl [H7]; · iexists _; iexact H7
    isplitl [H8]; · iexists _; iexact H8
    iexists _; iexact HS0

end Cert.Kernel.Hand

end
-- ==== Proof.KR0Outs.lean ====
import proofs.«401480_j41566693490738_3_alg».proof.Proof.KR0RunA
import proofs.«401480_j41566693490738_3_alg».proof.Proof.KR0RunB
import proofs.«401480_j41566693490738_3_alg».proof.Proof.KR0RunC

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (b : Bufs0) (x : Ins0 F)

section A
variable (hc0 : cond0_0 i) (hc1 : ¬cond0_1 i)
def out0_A_5 : Vec F S1x512x1024 .bf16 := VO0_5.read (Elt F) (VO0_5.writes (Elt F) VO0_5.junk (kernelRun0_A c i b x hc0 hc1).1)
theorem out0_A_5_cover : ∀ y : S1x512x1024.Idx, ∃ pc ∈ (kernelRun0_A c i b x hc0 hc1).1, y ∈ pc.1.set := View.cover_of_tiledL _ S1x512x1024.size (by sl_kernel_rfl)
def out0_A_6 : Vec F S1x512x1024 .bf16 := VO0_6.read (Elt F) (VO0_6.writes (Elt F) VO0_6.junk (kernelRun0_A c i b x hc0 hc1).2.1)
theorem out0_A_6_cover : ∀ y : S1x512x1024.Idx, ∃ pc ∈ (kernelRun0_A c i b x hc0 hc1).2.1, y ∈ pc.1.set := View.cover_of_tiledL _ S1x512x1024.size (by sl_kernel_rfl)
def out0_A_7 : Vec F S1x512x1024 .bf16 := VO0_7.read (Elt F) (VO0_7.writes (Elt F) VO0_7.junk (kernelRun0_A c i b x hc0 hc1).2.2.1)
theorem out0_A_7_cover : ∀ y : S1x512x1024.Idx, ∃ pc ∈ (kernelRun0_A c i b x hc0 hc1).2.2.1, y ∈ pc.1.set := View.cover_of_tiledL _ S1x512x1024.size (by sl_kernel_rfl)
def sout0_A_0 : Vec F S1x1024 .f32 := VS0_0.read (Elt F) (VS0_0.writes (Elt F) VS0_0.junk (kernelRun0_A c i b x hc0 hc1).2.2.2.1)
theorem sout0_A_0_cover : ∀ y : S1x1024.Idx, ∃ pc ∈ (kernelRun0_A c i b x hc0 hc1).2.2.2.1, y ∈ pc.1.set := View.cover_of_tiledL _ S1x1024.size (by sl_kernel_rfl)
end A

section B
variable (hc0 : ¬cond0_0 i) (hc1 : ¬cond0_1 i) (xs0 : Vec F S1x1024 .f32)
def out0_B_5 : Vec F S1x512x1024 .bf16 := VO0_5.read (Elt F) (VO0_5.writes (Elt F) VO0_5.junk (kernelRun0_B c i b x hc0 hc1 xs0).1)
theorem out0_B_5_cover : ∀ y : S1x512x1024.Idx, ∃ pc ∈ (kernelRun0_B c i b x hc0 hc1 xs0).1, y ∈ pc.1.set := View.cover_of_tiledL _ S1x512x1024.size (by sl_kernel_rfl)
def out0_B_6 : Vec F S1x512x1024 .bf16 := VO0_6.read (Elt F) (VO0_6.writes (Elt F) VO0_6.junk (kernelRun0_B c i b x hc0 hc1 xs0).2.1)
theorem out0_B_6_cover : ∀ y : S1x512x1024.Idx, ∃ pc ∈ (kernelRun0_B c i b x hc0 hc1 xs0).2.1, y ∈ pc.1.set := View.cover_of_tiledL _ S1x512x1024.size (by sl_kernel_rfl)
def out0_B_7 : Vec F S1x512x1024 .bf16 := VO0_7.read (Elt F) (VO0_7.writes (Elt F) VO0_7.junk (kernelRun0_B c i b x hc0 hc1 xs0).2.2.1)
theorem out0_B_7_cover : ∀ y : S1x512x1024.Idx, ∃ pc ∈ (kernelRun0_B c i b x hc0 hc1 xs0).2.2.1, y ∈ pc.1.set := View.cover_of_tiledL _ S1x512x1024.size (by sl_kernel_rfl)
def sout0_B_0 : Vec F S1x1024 .f32 := VS0_0.read (Elt F) (VS0_0.writes (Elt F) VS0_0.junk (kernelRun0_B c i b x hc0 hc1 xs0).2.2.2.1)
theorem sout0_B_0_cover : ∀ y : S1x1024.Idx, ∃ pc ∈ (kernelRun0_B c i b x hc0 hc1 xs0).2.2.2.1, y ∈ pc.1.set := View.cover_of_tiledL _ S1x1024.size (by sl_kernel_rfl)
end B

section C
variable (hc0 : ¬cond0_0 i) (hc1 : cond0_1 i) (xs0 : Vec F S1x1024 .f32)
def out0_C_5 : Vec F S1x512x1024 .bf16 := VO0_5.read (Elt F) (VO0_5.writes (Elt F) VO0_5.junk (kernelRun0_C c i b x hc0 hc1 xs0).1)
theorem out0_C_5_cover : ∀ y : S1x512x1024.Idx, ∃ pc ∈ (kernelRun0_C c i b x hc0 hc1 xs0).1, y ∈ pc.1.set := View.cover_of_tiledL _ S1x512x1024.size (by sl_kernel_rfl)
def out0_C_6 : Vec F S1x512x1024 .bf16 := VO0_6.read (Elt F) (VO0_6.writes (Elt F) VO0_6.junk (kernelRun0_C c i b x hc0 hc1 xs0).2.1)
theorem out0_C_6_cover : ∀ y : S1x512x1024.Idx, ∃ pc ∈ (kernelRun0_C c i b x hc0 hc1 xs0).2.1, y ∈ pc.1.set := View.cover_of_tiledL _ S1x512x1024.size (by sl_kernel_rfl)
def out0_C_7 : Vec F S1x512x1024 .bf16 := VO0_7.read (Elt F) (VO0_7.writes (Elt F) VO0_7.junk (kernelRun0_C c i b x hc0 hc1 xs0).2.2.1)
theorem out0_C_7_cover : ∀ y : S1x512x1024.Idx, ∃ pc ∈ (kernelRun0_C c i b x hc0 hc1 xs0).2.2.1, y ∈ pc.1.set := View.cover_of_tiledL _ S1x512x1024.size (by sl_kernel_rfl)
def out0_C_8 : Vec F S1x1x1024 .f32 := VO0_8.read (Elt F) (VO0_8.writes (Elt F) VO0_8.junk (kernelRun0_C c i b x hc0 hc1 xs0).2.2.2.1)
theorem out0_C_8_cover : ∀ y : S1x1x1024.Idx, ∃ pc ∈ (kernelRun0_C c i b x hc0 hc1 xs0).2.2.2.1, y ∈ pc.1.set := View.cover_of_tiledL _ S1x1x1024.size (by sl_kernel_rfl)
def sout0_C_0 : Vec F S1x1024 .f32 := VS0_0.read (Elt F) (VS0_0.writes (Elt F) VS0_0.junk (kernelRun0_C c i b x hc0 hc1 xs0).2.2.2.2.1)
theorem sout0_C_0_cover : ∀ y : S1x1024.Idx, ∃ pc ∈ (kernelRun0_C c i b x hc0 hc1 xs0).2.2.2.2.1, y ∈ pc.1.set := View.cover_of_tiledL _ S1x1024.size (by sl_kernel_rfl)
end C

end Cert.Kernel.Hand

end
-- ==== Proof.KR0Body.lean ====
import proofs.«401480_j41566693490738_3_alg».proof.Proof.KR0Outs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

structure Outs0 (F : FTy → Type) [FloatOps F] where
  q : Vec F S1x512x1024 .bf16
  k : Vec F S1x512x1024 .bf16
  xb : Vec F S1x512x1024 .bf16
  mean : Vec F S1x1x1024 .f32
  sc : Vec F S1x1024 .f32

section Region0

variable (V : (c : Dev nD) → (b : Ref sig .tc) → Buf (Elt F) ((c : Thread nD τ).loc b))

/-- The call at grid point `t`: its buffers and its blocks. -/
abbrev bufs0 (t : Fin cfg0.N) : Bufs0 := ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, scM0_0, Memref.isWhole_whole _⟩
abbrev ins0 (c : Dev nD) (t : Fin cfg0.N) : Ins0 F := ⟨iblk0 V c 0 t, iblk0 V c 1 t, iblk0 V c 2 t, iblk0 V c 3 t, iblk0 V c 4 t⟩

def ptA0 (c : Dev nD) (t : Fin cfg0.N) (hc0 : cond0_0 (grid0.coords t)) (hc1 : ¬cond0_1 (grid0.coords t)) : Outs0 F where
  q := out0_A_5 c _ (bufs0 t) (ins0 V c t) hc0 hc1
  k := out0_A_6 c _ (bufs0 t) (ins0 V c t) hc0 hc1
  xb := out0_A_7 c _ (bufs0 t) (ins0 V c t) hc0 hc1
  mean := VO0_8.read (Elt F) VO0_8.junk
  sc := sout0_A_0 c _ (bufs0 t) (ins0 V c t) hc0 hc1

def ptB0 (c : Dev nD) (t : Fin cfg0.N) (hc0 : ¬cond0_0 (grid0.coords t)) (hc1 : ¬cond0_1 (grid0.coords t)) (xs0 : Vec F S1x1024 .f32) : Outs0 F where
  q := out0_B_5 c _ (bufs0 t) (ins0 V c t) hc0 hc1 xs0
  k := out0_B_6 c _ (bufs0 t) (ins0 V c t) hc0 hc1 xs0
  xb := out0_B_7 c _ (bufs0 t) (ins0 V c t) hc0 hc1 xs0
  mean := VO0_8.read (Elt F) VO0_8.junk
  sc := sout0_B_0 c _ (bufs0 t) (ins0 V c t) hc0 hc1 xs0

def ptC0 (c : Dev nD) (t : Fin cfg0.N) (hc0 : ¬cond0_0 (grid0.coords t)) (hc1 : cond0_1 (grid0.coords t)) (xs0 : Vec F S1x1024 .f32) : Outs0 F where
  q := out0_C_5 c _ (bufs0 t) (ins0 V c t) hc0 hc1 xs0
  k := out0_C_6 c _ (bufs0 t) (ins0 V c t) hc0 hc1 xs0
  xb := out0_C_7 c _ (bufs0 t) (ins0 V c t) hc0 hc1 xs0
  mean := out0_C_8 c _ (bufs0 t) (ins0 V c t) hc0 hc1 xs0
  sc := sout0_C_0 c _ (bufs0 t) (ins0 V c t) hc0 hc1 xs0

def outsAt0 (c : Dev nD) : (n : ℕ) → n < cfg0.N → Outs0 F
  | 0, hn => ptA0 V c ⟨0, hn⟩ ((hcond0_0 ⟨0, hn⟩).mpr (Nat.zero_mod _)) (fun h => by have h3 := (hcond0_1 ⟨0, hn⟩).mp h; (try dsimp only at h3); omega)
  | n + 1, hn =>
    if h0 : (n + 1) % 4 = 0 then
      ptA0 V c ⟨n + 1, hn⟩ ((hcond0_0 ⟨n + 1, hn⟩).mpr h0) (fun h => by have h3 := (hcond0_1 ⟨n + 1, hn⟩).mp h; (try dsimp only at h3); omega)
    else if h1 : (n + 1) % 4 = 3 then
      ptC0 V c ⟨n + 1, hn⟩ (fun h => h0 ((hcond0_0 ⟨n + 1, hn⟩).mp h)) ((hcond0_1 ⟨n + 1, hn⟩).mpr h1) (outsAt0 c n (Nat.lt_of_succ_lt hn)).sc
    else
      ptB0 V c ⟨n + 1, hn⟩ (fun h => h0 ((hcond0_0 ⟨n + 1, hn⟩).mp h)) (fun h => h1 ((hcond0_1 ⟨n + 1, hn⟩).mp h)) (outsAt0 c n (Nat.lt_of_succ_lt hn)).sc

theorem outsAt0_A (c : Dev nD) (t : Fin cfg0.N) (h0 : t.val % 4 = 0) (hc0 : cond0_0 (grid0.coords t)) (hc1 : ¬cond0_1 (grid0.coords t)) :
    outsAt0 V c t.val t.isLt = ptA0 V c t hc0 hc1 := by
  obtain ⟨n, hn⟩ := t
  cases n with
  | zero => rfl
  | succ n => exact (dif_pos h0).trans rfl

theorem outsAt0_B (c : Dev nD) (t : Fin cfg0.N) (h0 : ¬t.val % 4 = 0) (h1 : ¬t.val % 4 = 3) (hc0 : ¬cond0_0 (grid0.coords t)) (hc1 : ¬cond0_1 (grid0.coords t)) :
    outsAt0 V c t.val t.isLt = ptB0 V c t hc0 hc1 (outsAt0 V c (t.val - 1) (Nat.lt_of_le_of_lt (Nat.sub_le _ _) t.isLt)).sc := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) (hc0 : ¬cond0_0 (grid0.coords t)) (hc1 : cond0_1 (grid0.coords t)) :
    outsAt0 V c t.val t.isLt = ptC0 V c t hc0 hc1 (outsAt0 V c (t.val - 1) (Nat.lt_of_le_of_lt (Nat.sub_le _ _) t.isLt)).sc := by
  obtain ⟨n, hn⟩ := t
  cases n with
  | zero => exact absurd (Nat.zero_mod _) h0
  | succ n => exact (dif_neg h0).trans ((dif_pos h1).trans rfl)

def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).sc) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).sc) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).sc) ∗ Rest0 c) ∗ (∃ r, prngReg c r)) := by
  cases n with
  | zero => exact absurd rfl hz
  | succ n => rfl

theorem PhiS0_any (c : Dev nD) (n : ℕ) (h : n ≤ cfg0.N) :
    PhiS0 V c n h ⊢ iprop(iprop((∃ d, owns (c : Thread nD τ) scM0_0 fullShare d) ∗ Rest0 c) ∗ (∃ r, prngReg c r)) := by
  cases n with
  | zero => rw [PhiS0_zero V c 0 h rfl, PhiA0_eq]
  | succ n =>
    rw [PhiS0_succ]
    iintro ⟨⟨HS0, HR⟩, Hg⟩
    isplitl [HS0 HR]
    · isplitl [HS0]; · iexists _; iexact HS0
      iexact HR
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).q
    | ⟨6, _⟩ => (outsAt0 V c t.val t.isLt).k
    | ⟨7, _⟩ => (outsAt0 V c t.val t.isLt).xb
    | ⟨8, _⟩ => (outsAt0 V c t.val t.isLt).mean
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).q := by dsimp only [dat0]
theorem after0_6 (c : Dev nD) (t : Fin cfg0.N) : (dat0 V c).after 6 t = (outsAt0 V c t.val t.isLt).k := by dsimp only [dat0]
theorem after0_7 (c : Dev nD) (t : Fin cfg0.N) : (dat0 V c).after 7 t = (outsAt0 V c t.val t.isLt).xb := by dsimp only [dat0]
theorem after0_8 (c : Dev nD) (t : Fin cfg0.N) : (dat0 V c).after 8 t = (outsAt0 V c t.val t.isLt).mean := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t
    ∗ (dat0 V c).leavesExact 6 t ∗ (dat0 V c).leavesExact 7 t ∗ (dat0 V c).leavesExact 8 t)

set_option maxHeartbeats 8000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  by_cases h0 : t.val % 4 = 0
  · have hc0 : cond0_0 (grid0.coords t) := (hcond0_0 t).mpr h0
    have hc1 : ¬cond0_1 (grid0.coords t) := fun h => by have h3 := (hcond0_1 t).mp h; omega
    rw [Dat.leavesExact_idle (dat0 V c) 8 t (idleAt0_8 t hc1) (noFlush0_8 t hc1)]
    rw [outsAt0_A V c t h0 hc0 hc1]
    unfold ptA0; dsimp only
    unfold out0_A_5 out0_A_6 out0_A_7 sout0_A_0
    dsimp only [bufs0, ins0]
    rw [PhiS0_castSucc V c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ' := (PhiS0_any V c _ _) $$ HΦ
    icases HΦ' with ⟨⟨HS0, HR⟩, Hg⟩
    iapply ((kernelRun0_A c _ (bufs0 t) (ins0 V c t) hc0 hc1).2.2.2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    isplitl [HS0]; · iexact HS0
    iintro ⟨H0, H1, H2, H3, H4, ⟨%e5, H5⟩, ⟨%e6, H6⟩, ⟨%e7, H7⟩, H8, ⟨%es0, HS0⟩⟩
    isplitl [HS0 HR Hg]
    · isplitl [HS0 HR]
      · isplitl [HS0]; · ihave H' := (Ring.owns_of_writes_tiledL VS0_0 S1x1024.size) $$ HS0; iapply H'; ipureintro; sl_kernel_rfl
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · ihave H' := (Ring.owns_of_writes_tiledL VO0_5 S1x512x1024.size) $$ H5; iapply H'; ipureintro; sl_kernel_rfl
    isplitl [H6]; · ihave H' := (Ring.owns_of_writes_tiledL VO0_6 S1x512x1024.size) $$ H6; iapply H'; ipureintro; sl_kernel_rfl
    isplitl [H7]; · ihave H' := (Ring.owns_of_writes_tiledL VO0_7 S1x512x1024.size) $$ H7; iapply H'; ipureintro; sl_kernel_rfl
    iexists _; iexact H8
  · have hc0 : ¬cond0_0 (grid0.coords t) := fun h => h0 ((hcond0_0 t).mp h)
    have hz : t.val ≠ 0 := fun hz => h0 (by rw [hz])
    by_cases h1 : t.val % 4 = 3
    · have hc1 : cond0_1 (grid0.coords t) := (hcond0_1 t).mpr h1
      rw [show (dat0 V c).leavesExact 8 t = owns (c : Thread nD τ) (ms0_8 t) fullShare ((dat0 V c).after 8 t) from by
        unfold Dat.leavesExact; rw [liveAt0_8 t hc1], after0_8]
      rw [outsAt0_C V c t h0 h1 hc0 hc1]
      unfold ptC0; dsimp only
      unfold out0_C_5 out0_C_6 out0_C_7 out0_C_8 sout0_C_0
      dsimp only [bufs0, ins0]
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c _ (bufs0 t) (ins0 V c t) hc0 hc1 _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexact HS0
      iintro ⟨H0, H1, H2, H3, H4, ⟨%e5, H5⟩, ⟨%e6, H6⟩, ⟨%e7, H7⟩, ⟨%e8, H8⟩, ⟨%es0, HS0⟩⟩
      isplitl [HS0 HR Hg]
      · isplitl [HS0 HR]
        · isplitl [HS0]; · ihave H' := (Ring.owns_of_writes_tiledL VS0_0 S1x1024.size) $$ HS0; iapply H'; ipureintro; sl_kernel_rfl
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · ihave H' := (Ring.owns_of_writes_tiledL VO0_5 S1x512x1024.size) $$ H5; iapply H'; ipureintro; sl_kernel_rfl
      isplitl [H6]; · ihave H' := (Ring.owns_of_writes_tiledL VO0_6 S1x512x1024.size) $$ H6; iapply H'; ipureintro; sl_kernel_rfl
      isplitl [H7]; · ihave H' := (Ring.owns_of_writes_tiledL VO0_7 S1x512x1024.size) $$ H7; iapply H'; ipureintro; sl_kernel_rfl
      ihave H' := (Ring.owns_of_writes_tiledL VO0_8 S1x1x1024.size) $$ H8; iapply H'; ipureintro; sl_kernel_rfl
    · have hc1 : ¬cond0_1 (grid0.coords t) := fun h => h1 ((hcond0_1 t).mp h)
      rw [Dat.leavesExact_idle (dat0 V c) 8 t (idleAt0_8 t hc1) (noFlush0_8 t hc1)]
      rw [outsAt0_B V c t h0 h1 hc0 hc1]
      unfold ptB0; dsimp only
      unfold out0_B_5 out0_B_6 out0_B_7 sout0_B_0
      dsimp only [bufs0, ins0]
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c _ (bufs0 t) (ins0 V c t) hc0 hc1 _).2.2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexact H8
      isplitl [HS0]; · iexact HS0
      iintro ⟨H0, H1, H2, H3, H4, ⟨%e5, H5⟩, ⟨%e6, H6⟩, ⟨%e7, H7⟩, H8, ⟨%es0, HS0⟩⟩
      isplitl [HS0 HR Hg]
      · isplitl [HS0 HR]
        · isplitl [HS0]; · ihave H' := (Ring.owns_of_writes_tiledL VS0_0 S1x1024.size) $$ HS0; iapply H'; ipureintro; sl_kernel_rfl
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · ihave H' := (Ring.owns_of_writes_tiledL VO0_5 S1x512x1024.size) $$ H5; iapply H'; ipureintro; sl_kernel_rfl
      isplitl [H6]; · ihave H' := (Ring.owns_of_writes_tiledL VO0_6 S1x512x1024.size) $$ H6; iapply H'; ipureintro; sl_kernel_rfl
      isplitl [H7]; · ihave H' := (Ring.owns_of_writes_tiledL VO0_7 S1x512x1024.size) $$ H7; iapply H'; ipureintro; sl_kernel_rfl
      iexists _; iexact H8

theorem body_obligation0 (c : Dev nD) : BodyObligation (dat0 (F := F) V c) (defs₀ (F := F)) Variants.none () Set.univ := fun t => by
  rw [bigSep_W0, bigSep_W0]
  exact sound_body0 V c t

theorem Phi0_in (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi0_out (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl, PhiA0_eq]
  exact PhiS0_any V c _ _

end Region0

end Cert.Kernel.Hand

end
-- ==== Proof.KR1Defs.lean ====
import proofs.«401480_j41566693490738_3_alg».proof.Proof.Gen.Kernel.Launch
import proofs.«401480_j41566693490738_3_alg».proof.Proof.Gen.Kernel.Skeleton
import proofs.«401480_j41566693490738_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel

theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x1024 .f32 := win1_5.stage (cfg1.slots t 5)
abbrev hs1_5 (t : Fin cfg1.N) : (ms1_5 t).IsWhole := hstage1_5 ((cfg1.slots t 5).cast nbuf1_5)

abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2

abbrev VO1_5 : View sig .tc .vmem S1x1024x1024 .f32 := (Memref.whole cc1_stg5_0 : Memref sig .tc .vmem S1x1024x1024 .f32).view
abbrev VS1_0 : View sig .tc .vmem S1024x1 .f32 := scM1_0.view
abbrev VS1_1 : View sig .tc .vmem S1024x1 .f32 := scM1_1.view
abbrev VS1_2 : View sig .tc .vmem S1024x1024 .f32 := scM1_2.view

end Region1

/-- The buffers one call of the second body receives, each whole. -/
structure Bufs1 where
  a3 : Memref sig .tc .vmem S1x1024x1024 .bf16
  h3 : a3.IsWhole
  a4 : Memref sig .tc .vmem S1x256x1024 .bf16
  h4 : a4.IsWhole
  a5 : Memref sig .tc .vmem S1x256x1024 .bf16
  h5 : a5.IsWhole
  a6 : Memref sig .tc .vmem S1x1024x1024 .f32
  h6 : a6.IsWhole
  a7 : Memref sig .tc .vmem S1x1x1024 .f32
  h7 : a7.IsWhole
  a8 : Memref sig .tc .vmem S1x1024x1024 .f32
  h8 : a8.IsWhole
  a9 : Memref sig .tc .vmem S1024x1 .f32
  h9 : a9.IsWhole
  a10 : Memref sig .tc .vmem S1024x1 .f32
  h10 : a10.IsWhole
  a11 : Memref sig .tc .vmem S1024x1024 .f32
  h11 : a11.IsWhole

/-- The five blocks one call of the second body reads. -/
structure Ins1 (F : FTy → Type) [FloatOps F] where
  x0 : Vec F S1x1024x1024 .bf16
  x1 : Vec F S1x256x1024 .bf16
  x2 : Vec F S1x256x1024 .bf16
  x3 : Vec F S1x1024x1024 .f32
  x4 : Vec F S1x1x1024 .f32

end Cert.Kernel.Hand

end
-- ==== Proof.KR1RunA.lean ====
import proofs.«401480_j41566693490738_3_alg».proof.Proof.KR1Defs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_A (c : Dev nD) (i : grid1.Coords) (b : Bufs1) (x : Ins1 F) (hc0 : cond1_0 i) (hc1 : ¬cond1_1 i) :
    Σ' (LS0 : List (View.Piece (Elt F) S1024x1 .f32)) (LS1 : List (View.Piece (Elt F) S1024x1 .f32)), { LS2 : List (View.Piece (Elt F) S1024x1024 .f32) //
      ∀ (xi5 : Vec F S1x1024x1024 .f32) (E : Set ℕ) (K : PUnit → sProp 𝕄),
        iprop(owns (c : Thread nD τ) b.a3 fullShare x.x0 ∗ owns (c : Thread nD τ) b.a4 fullShare x.x1 ∗ owns (c : Thread nD τ) b.a5 fullShare x.x2 ∗ owns (c : Thread nD τ) b.a6 fullShare x.x3 ∗ owns (c : Thread nD τ) b.a7 fullShare x.x4
            ∗ owns (c : Thread nD τ) b.a8 fullShare xi5 ∗ (∃ d, owns (c : Thread nD τ) b.a9 fullShare d) ∗ (∃ d, owns (c : Thread nD τ) b.a10 fullShare d) ∗ (∃ d, owns (c : Thread nD τ) b.a11 fullShare d)
            ∗ (iprop(owns (c : Thread nD τ) b.a3 fullShare x.x0 ∗ owns (c : Thread nD τ) b.a4 fullShare x.x1 ∗ owns (c : Thread nD τ) b.a5 fullShare x.x2 ∗ owns (c : Thread nD τ) b.a6 fullShare x.x3 ∗ owns (c : Thread nD τ) b.a7 fullShare x.x4
                ∗ owns (c : Thread nD τ) b.a8 fullShare xi5 ∗ (∃ f, b.a9.view.loc (c : Thread nD τ) ↦[b.a9.view.set]{fullShare} b.a9.view.writes (Elt F) f LS0) ∗ (∃ f, b.a10.view.loc (c : Thread nD τ) ↦[b.a10.view.set]{fullShare} b.a10.view.writes (Elt F) f LS1) ∗ (∃ f, b.a11.view.loc (c : Thread nD τ) ↦[b.a11.view.set]{fullShare} b.a11.view.writes (Elt F) f LS2)) -∗ K ⟨⟩))
          ⊢ wp frame (wpE (defs₀ (F := F)) Variants.none c none) E (cc1__flash_kernel i b.a3 b.h3 b.a4 b.h4 b.a5 b.h5 b.a6 b.h6 b.a7 b.h7 b.a8 b.h8 b.a9 b.h9 b.a10 b.h10 b.a11 b.h11) K } := by
  refine ⟨?_, ?_, ?_, fun xi5 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := b.h3.eq_unread hf0; obtain rfl := b.h4.eq_unread hf1; obtain rfl := b.h5.eq_unread hf2; obtain rfl := b.h6.eq_unread hf3; obtain rfl := b.h7.eq_unread hf4
    obtain rfl := b.h8.eq_unread hf5
    sl_exec (disch := first | exact hc0 | exact hc1)
    sl_step
    iapply Hk
    isplitl [H0]
    · iexists _; isplitr; · ipureintro; exact b.h3.read_unread _
      iexact H0
    isplitl [H1]
    · iexists _; isplitr; · ipureintro; exact b.h4.read_unread _
      iexact H1
    isplitl [H2]
    · iexists _; isplitr; · ipureintro; exact b.h5.read_unread _
      iexact H2
    isplitl [H3]
    · iexists _; isplitr; · ipureintro; exact b.h6.read_unread _
      iexact H3
    isplitl [H4]
    · iexists _; isplitr; · ipureintro; exact b.h7.read_unread _
      iexact H4
    isplitl [H5]
    · iexists _; isplitr; · ipureintro; exact b.h8.read_unread _
      iexact H5
    isplitl [HS0]; · iexists _; iexact HS0
    isplitl [HS1]; · iexists _; iexact HS1
    iexists _; iexact HS2

end Cert.Kernel.Hand

end
-- ==== Proof.KR1RunB.lean ====
import proofs.«401480_j41566693490738_3_alg».proof.Proof.KR1Defs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_B (c : Dev nD) (i : grid1.Coords) (b : Bufs1) (x : Ins1 F) (hc0 : ¬cond1_0 i) (hc1 : ¬cond1_1 i) (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi5 : Vec F S1x1024x1024 .f32) (E : Set ℕ) (K : PUnit → sProp 𝕄),
        iprop(owns (c : Thread nD τ) b.a3 fullShare x.x0 ∗ owns (c : Thread nD τ) b.a4 fullShare x.x1 ∗ owns (c : Thread nD τ) b.a5 fullShare x.x2 ∗ owns (c : Thread nD τ) b.a6 fullShare x.x3 ∗ owns (c : Thread nD τ) b.a7 fullShare x.x4
            ∗ owns (c : Thread nD τ) b.a8 fullShare xi5 ∗ owns (c : Thread nD τ) b.a9 fullShare xs0 ∗ owns (c : Thread nD τ) b.a10 fullShare xs1 ∗ owns (c : Thread nD τ) b.a11 fullShare xs2
            ∗ (iprop(owns (c : Thread nD τ) b.a3 fullShare x.x0 ∗ owns (c : Thread nD τ) b.a4 fullShare x.x1 ∗ owns (c : Thread nD τ) b.a5 fullShare x.x2 ∗ owns (c : Thread nD τ) b.a6 fullShare x.x3 ∗ owns (c : Thread nD τ) b.a7 fullShare x.x4
                ∗ owns (c : Thread nD τ) b.a8 fullShare xi5 ∗ (∃ f, b.a9.view.loc (c : Thread nD τ) ↦[b.a9.view.set]{fullShare} b.a9.view.writes (Elt F) f LS0) ∗ (∃ f, b.a10.view.loc (c : Thread nD τ) ↦[b.a10.view.set]{fullShare} b.a10.view.writes (Elt F) f LS1) ∗ (∃ f, b.a11.view.loc (c : Thread nD τ) ↦[b.a11.view.set]{fullShare} b.a11.view.writes (Elt F) f LS2)) -∗ K ⟨⟩))
          ⊢ wp frame (wpE (defs₀ (F := F)) Variants.none c none) E (cc1__flash_kernel i b.a3 b.h3 b.a4 b.h4 b.a5 b.h5 b.a6 b.h6 b.a7 b.h7 b.a8 b.h8 b.a9 b.h9 b.a10 b.h10 b.a11 b.h11) K } := by
  refine ⟨?_, ?_, ?_, fun xi5 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := b.h3.eq_unread hf0; obtain rfl := b.h4.eq_unread hf1; obtain rfl := b.h5.eq_unread hf2; obtain rfl := b.h6.eq_unread hf3; obtain rfl := b.h7.eq_unread hf4
    obtain rfl := b.h8.eq_unread hf5; obtain rfl := b.h9.eq_unread hfs0; obtain rfl := b.h10.eq_unread hfs1; obtain rfl := b.h11.eq_unread hfs2
    sl_exec (disch := first | exact hc0 | exact hc1)
    sl_step
    iapply Hk
    isplitl [H0]
    · iexists _; isplitr; · ipureintro; exact b.h3.read_unread _
      iexact H0
    isplitl [H1]
    · iexists _; isplitr; · ipureintro; exact b.h4.read_unread _
      iexact H1
    isplitl [H2]
    · iexists _; isplitr; · ipureintro; exact b.h5.read_unread _
      iexact H2
    isplitl [H3]
    · iexists _; isplitr; · ipureintro; exact b.h6.read_unread _
      iexact H3
    isplitl [H4]
    · iexists _; isplitr; · ipureintro; exact b.h7.read_unread _
      iexact H4
    isplitl [H5]
    · iexists _; isplitr; · ipureintro; exact b.h8.read_unread _
      iexact H5
    isplitl [HS0]; · iexists _; iexact HS0
    isplitl [HS1]; · iexists _; iexact HS1
    iexists _; iexact HS2

end Cert.Kernel.Hand

end
-- ==== Proof.KR1RunC.lean ====
import proofs.«401480_j41566693490738_3_alg».proof.Proof.KR1Defs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_C (c : Dev nD) (i : grid1.Coords) (b : Bufs1) (x : Ins1 F) (hc0 : ¬cond1_0 i) (hc1 : cond1_1 i) (xs0 : Vec F S1024x1 .f32) (xs1 : Vec F S1024x1 .f32) (xs2 : Vec F S1024x1024 .f32) :
    Σ' (L5 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) b.a3 fullShare x.x0 ∗ owns (c : Thread nD τ) b.a4 fullShare x.x1 ∗ owns (c : Thread nD τ) b.a5 fullShare x.x2 ∗ owns (c : Thread nD τ) b.a6 fullShare x.x3 ∗ owns (c : Thread nD τ) b.a7 fullShare x.x4
            ∗ (∃ d, owns (c : Thread nD τ) b.a8 fullShare d) ∗ owns (c : Thread nD τ) b.a9 fullShare xs0 ∗ owns (c : Thread nD τ) b.a10 fullShare xs1 ∗ owns (c : Thread nD τ) b.a11 fullShare xs2
            ∗ (iprop(owns (c : Thread nD τ) b.a3 fullShare x.x0 ∗ owns (c : Thread nD τ) b.a4 fullShare x.x1 ∗ owns (c : Thread nD τ) b.a5 fullShare x.x2 ∗ owns (c : Thread nD τ) b.a6 fullShare x.x3 ∗ owns (c : Thread nD τ) b.a7 fullShare x.x4
                ∗ (∃ f, b.a8.view.loc (c : Thread nD τ) ↦[b.a8.view.set]{fullShare} b.a8.view.writes (Elt F) f L5) ∗ (∃ f, b.a9.view.loc (c : Thread nD τ) ↦[b.a9.view.set]{fullShare} b.a9.view.writes (Elt F) f LS0) ∗ (∃ f, b.a10.view.loc (c : Thread nD τ) ↦[b.a10.view.set]{fullShare} b.a10.view.writes (Elt F) f LS1) ∗ (∃ f, b.a11.view.loc (c : Thread nD τ) ↦[b.a11.view.set]{fullShare} b.a11.view.writes (Elt F) f LS2)) -∗ K ⟨⟩))
          ⊢ wp frame (wpE (defs₀ (F := F)) Variants.none c none) E (cc1__flash_kernel i b.a3 b.h3 b.a4 b.h4 b.a5 b.h5 b.a6 b.h6 b.a7 b.h7 b.a8 b.h8 b.a9 b.h9 b.a10 b.h10 b.a11 b.h11) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := b.h3.eq_unread hf0; obtain rfl := b.h4.eq_unread hf1; obtain rfl := b.h5.eq_unread hf2; obtain rfl := b.h6.eq_unread hf3; obtain rfl := b.h7.eq_unread hf4
    obtain rfl := b.h9.eq_unread hfs0; obtain rfl := b.h10.eq_unread hfs1; obtain rfl := b.h11.eq_unread hfs2
    sl_exec (disch := first | exact hc0 | exact hc1)
    sl_step
    iapply Hk
    isplitl [H0]
    · iexists _; isplitr; · ipureintro; exact b.h3.read_unread _
      iexact H0
    isplitl [H1]
    · iexists _; isplitr; · ipureintro; exact b.h4.read_unread _
      iexact H1
    isplitl [H2]
    · iexists _; isplitr; · ipureintro; exact b.h5.read_unread _
      iexact H2
    isplitl [H3]
    · iexists _; isplitr; · ipureintro; exact b.h6.read_unread _
      iexact H3
    isplitl [H4]
    · iexists _; isplitr; · ipureintro; exact b.h7.read_unread _
      iexact H4
    isplitl [H5]; · iexists _; iexact H5
    isplitl [HS0]; · iexists _; iexact HS0
    isplitl [HS1]; · iexists _; iexact HS1
    iexists _; iexact HS2

end Cert.Kernel.Hand

end
-- ==== Proof.KR1Outs.lean ====
import proofs.«401480_j41566693490738_3_alg».proof.Proof.KR1RunA
import proofs.«401480_j41566693490738_3_alg».proof.Proof.KR1RunB
import proofs.«401480_j41566693490738_3_alg».proof.Proof.KR1RunC

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid1.Coords) (b : Bufs1) (x : Ins1 F)

section A
variable (hc0 : cond1_0 i) (hc1 : ¬cond1_1 i)
def sout1_A_0 : Vec F S1024x1 .f32 := VS1_0.read (Elt F) (VS1_0.writes (Elt F) VS1_0.junk (kernelRun1_A c i b x hc0 hc1).1)
theorem sout1_A_0_cover : ∀ y : S1024x1.Idx, ∃ pc ∈ (kernelRun1_A c i b x hc0 hc1).1, y ∈ pc.1.set := View.cover_of_tiledL _ S1024x1.size (by sl_kernel_rfl)
def sout1_A_1 : Vec F S1024x1 .f32 := VS1_1.read (Elt F) (VS1_1.writes (Elt F) VS1_1.junk (kernelRun1_A c i b x hc0 hc1).2.1)
theorem sout1_A_1_cover : ∀ y : S1024x1.Idx, ∃ pc ∈ (kernelRun1_A c i b x hc0 hc1).2.1, y ∈ pc.1.set := View.cover_of_tiledL _ S1024x1.size (by sl_kernel_rfl)
def sout1_A_2 : Vec F S1024x1024 .f32 := VS1_2.read (Elt F) (VS1_2.writes (Elt F) VS1_2.junk (kernelRun1_A c i b x hc0 hc1).2.2.1)
theorem sout1_A_2_cover : ∀ y : S1024x1024.Idx, ∃ pc ∈ (kernelRun1_A c i b x hc0 hc1).2.2.1, y ∈ pc.1.set := View.cover_of_tiledL _ S1024x1024.size (by sl_kernel_rfl)
end A

section B
variable (hc0 : ¬cond1_0 i) (hc1 : ¬cond1_1 i) (xs0 xs1 : Vec F S1024x1 .f32) (xs2 : Vec F S1024x1024 .f32)
def sout1_B_0 : Vec F S1024x1 .f32 := VS1_0.read (Elt F) (VS1_0.writes (Elt F) VS1_0.junk (kernelRun1_B c i b x hc0 hc1 xs0 xs1 xs2).1)
theorem sout1_B_0_cover : ∀ y : S1024x1.Idx, ∃ pc ∈ (kernelRun1_B c i b x hc0 hc1 xs0 xs1 xs2).1, y ∈ pc.1.set := View.cover_of_tiledL _ S1024x1.size (by sl_kernel_rfl)
def sout1_B_1 : Vec F S1024x1 .f32 := VS1_1.read (Elt F) (VS1_1.writes (Elt F) VS1_1.junk (kernelRun1_B c i b x hc0 hc1 xs0 xs1 xs2).2.1)
theorem sout1_B_1_cover : ∀ y : S1024x1.Idx, ∃ pc ∈ (kernelRun1_B c i b x hc0 hc1 xs0 xs1 xs2).2.1, y ∈ pc.1.set := View.cover_of_tiledL _ S1024x1.size (by sl_kernel_rfl)
def sout1_B_2 : Vec F S1024x1024 .f32 := VS1_2.read (Elt F) (VS1_2.writes (Elt F) VS1_2.junk (kernelRun1_B c i b x hc0 hc1 xs0 xs1 xs2).2.2.1)
theorem sout1_B_2_cover : ∀ y : S1024x1024.Idx, ∃ pc ∈ (kernelRun1_B c i b x hc0 hc1 xs0 xs1 xs2).2.2.1, y ∈ pc.1.set := View.cover_of_tiledL _ S1024x1024.size (by sl_kernel_rfl)
end B

section C
variable (hc0 : ¬cond1_0 i) (hc1 : cond1_1 i) (xs0 xs1 : Vec F S1024x1 .f32) (xs2 : Vec F S1024x1024 .f32)
def out1_C_5 : Vec F S1x1024x1024 .f32 := VO1_5.read (Elt F) (VO1_5.writes (Elt F) VO1_5.junk (kernelRun1_C c i b x hc0 hc1 xs0 xs1 xs2).1)
theorem out1_C_5_cover : ∀ y : S1x1024x1024.Idx, ∃ pc ∈ (kernelRun1_C c i b x hc0 hc1 xs0 xs1 xs2).1, y ∈ pc.1.set := View.cover_of_tiledL _ S1x1024x1024.size (by sl_kernel_rfl)
def sout1_C_0 : Vec F S1024x1 .f32 := VS1_0.read (Elt F) (VS1_0.writes (Elt F) VS1_0.junk (kernelRun1_C c i b x hc0 hc1 xs0 xs1 xs2).2.1)
theorem sout1_C_0_cover : ∀ y : S1024x1.Idx, ∃ pc ∈ (kernelRun1_C c i b x hc0 hc1 xs0 xs1 xs2).2.1, y ∈ pc.1.set := View.cover_of_tiledL _ S1024x1.size (by sl_kernel_rfl)
def sout1_C_1 : Vec F S1024x1 .f32 := VS1_1.read (Elt F) (VS1_1.writes (Elt F) VS1_1.junk (kernelRun1_C c i b x hc0 hc1 xs0 xs1 xs2).2.2.1)
theorem sout1_C_1_cover : ∀ y : S1024x1.Idx, ∃ pc ∈ (kernelRun1_C c i b x hc0 hc1 xs0 xs1 xs2).2.2.1, y ∈ pc.1.set := View.cover_of_tiledL _ S1024x1.size (by sl_kernel_rfl)
def sout1_C_2 : Vec F S1024x1024 .f32 := VS1_2.read (Elt F) (VS1_2.writes (Elt F) VS1_2.junk (kernelRun1_C c i b x hc0 hc1 xs0 xs1 xs2).2.2.2.1)
theorem sout1_C_2_cover : ∀ y : S1024x1024.Idx, ∃ pc ∈ (kernelRun1_C c i b x hc0 hc1 xs0 xs1 xs2).2.2.2.1, y ∈ pc.1.set := View.cover_of_tiledL _ S1024x1024.size (by sl_kernel_rfl)
end C

end Cert.Kernel.Hand

end
-- ==== Proof.KR1Body.lean ====
import proofs.«401480_j41566693490738_3_alg».proof.Proof.KR1Outs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

structure Outs1 (F : FTy → Type) [FloatOps F] where
  o : Vec F S1x1024x1024 .f32
  m : Vec F S1024x1 .f32
  l : Vec F S1024x1 .f32
  acc : Vec F S1024x1024 .f32

section Region1

variable (V : (c : Dev nD) → (b : Ref sig .tc) → Buf (Elt F) ((c : Thread nD τ).loc b))

/-- The call at grid point `t`: its buffers and its blocks. -/
abbrev bufs1 (t : Fin cfg1.N) : Bufs1 := ⟨ms1_0 t, hs1_0 t, ms1_1 t, hs1_1 t, ms1_2 t, hs1_2 t, ms1_3 t, hs1_3 t, ms1_4 t, hs1_4 t, ms1_5 t, hs1_5 t, scM1_0, Memref.isWhole_whole _, scM1_1, Memref.isWhole_whole _, scM1_2, Memref.isWhole_whole _⟩
abbrev ins1 (c : Dev nD) (t : Fin cfg1.N) : Ins1 F := ⟨iblk1 V c 0 t, iblk1 V c 1 t, iblk1 V c 2 t, iblk1 V c 3 t, iblk1 V c 4 t⟩

def ptA1 (c : Dev nD) (t : Fin cfg1.N) (hc0 : cond1_0 (grid1.coords t)) (hc1 : ¬cond1_1 (grid1.coords t)) : Outs1 F where
  o := VO1_5.read (Elt F) VO1_5.junk
  m := sout1_A_0 c _ (bufs1 t) (ins1 V c t) hc0 hc1
  l := sout1_A_1 c _ (bufs1 t) (ins1 V c t) hc0 hc1
  acc := sout1_A_2 c _ (bufs1 t) (ins1 V c t) hc0 hc1

def ptB1 (c : Dev nD) (t : Fin cfg1.N) (hc0 : ¬cond1_0 (grid1.coords t)) (hc1 : ¬cond1_1 (grid1.coords t)) (xs0 : Vec F S1024x1 .f32) (xs1 : Vec F S1024x1 .f32) (xs2 : Vec F S1024x1024 .f32) : Outs1 F where
  o := VO1_5.read (Elt F) VO1_5.junk
  m := sout1_B_0 c _ (bufs1 t) (ins1 V c t) hc0 hc1 xs0 xs1 xs2
  l := sout1_B_1 c _ (bufs1 t) (ins1 V c t) hc0 hc1 xs0 xs1 xs2
  acc := sout1_B_2 c _ (bufs1 t) (ins1 V c t) hc0 hc1 xs0 xs1 xs2

def ptC1 (c : Dev nD) (t : Fin cfg1.N) (hc0 : ¬cond1_0 (grid1.coords t)) (hc1 : cond1_1 (grid1.coords t)) (xs0 : Vec F S1024x1 .f32) (xs1 : Vec F S1024x1 .f32) (xs2 : Vec F S1024x1024 .f32) : Outs1 F where
  o := out1_C_5 c _ (bufs1 t) (ins1 V c t) hc0 hc1 xs0 xs1 xs2
  m := sout1_C_0 c _ (bufs1 t) (ins1 V c t) hc0 hc1 xs0 xs1 xs2
  l := sout1_C_1 c _ (bufs1 t) (ins1 V c t) hc0 hc1 xs0 xs1 xs2
  acc := sout1_C_2 c _ (bufs1 t) (ins1 V c t) hc0 hc1 xs0 xs1 xs2

def outsAt1 (c : Dev nD) : (n : ℕ) → n < cfg1.N → Outs1 F
  | 0, hn => ptA1 V c ⟨0, hn⟩ ((hcond1_0 ⟨0, hn⟩).mpr (Nat.zero_mod _)) (fun h => by have h3 := (hcond1_1 ⟨0, hn⟩).mp h; (try dsimp only at h3); omega)
  | n + 1, hn =>
    if h0 : (n + 1) % 8 = 0 then
      ptA1 V c ⟨n + 1, hn⟩ ((hcond1_0 ⟨n + 1, hn⟩).mpr h0) (fun h => by have h3 := (hcond1_1 ⟨n + 1, hn⟩).mp h; (try dsimp only at h3); omega)
    else if h1 : (n + 1) % 8 = 7 then
      ptC1 V c ⟨n + 1, hn⟩ (fun h => h0 ((hcond1_0 ⟨n + 1, hn⟩).mp h)) ((hcond1_1 ⟨n + 1, hn⟩).mpr h1) (outsAt1 c n (Nat.lt_of_succ_lt hn)).m (outsAt1 c n (Nat.lt_of_succ_lt hn)).l (outsAt1 c n (Nat.lt_of_succ_lt hn)).acc
    else
      ptB1 V c ⟨n + 1, hn⟩ (fun h => h0 ((hcond1_0 ⟨n + 1, hn⟩).mp h)) (fun h => h1 ((hcond1_1 ⟨n + 1, hn⟩).mp h)) (outsAt1 c n (Nat.lt_of_succ_lt hn)).m (outsAt1 c n (Nat.lt_of_succ_lt hn)).l (outsAt1 c n (Nat.lt_of_succ_lt hn)).acc

theorem outsAt1_A (c : Dev nD) (t : Fin cfg1.N) (h0 : t.val % 8 = 0) (hc0 : cond1_0 (grid1.coords t)) (hc1 : ¬cond1_1 (grid1.coords t)) :
    outsAt1 V c t.val t.isLt = ptA1 V c t hc0 hc1 := by
  obtain ⟨n, hn⟩ := t
  cases n with
  | zero => rfl
  | succ n => exact (dif_pos h0).trans rfl

theorem outsAt1_B (c : Dev nD) (t : Fin cfg1.N) (h0 : ¬t.val % 8 = 0) (h1 : ¬t.val % 8 = 7) (hc0 : ¬cond1_0 (grid1.coords t)) (hc1 : ¬cond1_1 (grid1.coords t)) :
    outsAt1 V c t.val t.isLt = ptB1 V c t hc0 hc1 (outsAt1 V c (t.val - 1) (Nat.lt_of_le_of_lt (Nat.sub_le _ _) t.isLt)).m (outsAt1 V c (t.val - 1) (Nat.lt_of_le_of_lt (Nat.sub_le _ _) t.isLt)).l (outsAt1 V c (t.val - 1) (Nat.lt_of_le_of_lt (Nat.sub_le _ _) t.isLt)).acc := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) (hc0 : ¬cond1_0 (grid1.coords t)) (hc1 : cond1_1 (grid1.coords t)) :
    outsAt1 V c t.val t.isLt = ptC1 V c t hc0 hc1 (outsAt1 V c (t.val - 1) (Nat.lt_of_le_of_lt (Nat.sub_le _ _) t.isLt)).m (outsAt1 V c (t.val - 1) (Nat.lt_of_le_of_lt (Nat.sub_le _ _) t.isLt)).l (outsAt1 V c (t.val - 1) (Nat.lt_of_le_of_lt (Nat.sub_le _ _) t.isLt)).acc := by
  obtain ⟨n, hn⟩ := t
  cases n with
  | zero => exact absurd (Nat.zero_mod _) h0
  | succ n => exact (dif_neg h0).trans ((dif_pos h1).trans rfl)

def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_scratch0), ((c : Thread nD τ).loc cc0_scratch0) ↦{fullShare} f))

theorem rest1_in (c : Dev nD) (T : sProp 𝕄) :
    iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_scratch0), ((c : Thread nD τ).loc cc0_scratch0) ↦{fullShare} f) ∗ T) ⊢ iprop(Rest1 (F := F) c ∗ T) := by
  unfold Rest1
  iintro ⟨R1, R2, R3, R4, R5, R6, R7, R8, R9, R10, R11, R12, R13, R14, R15, HT⟩
  isplitl [R1 R2 R3 R4 R5 R6 R7 R8 R9 R10 R11 R12 R13 R14 R15]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  iexact HT

theorem rest1_out (c : Dev nD) (T : sProp 𝕄) :
    iprop(Rest1 (F := F) c ∗ T) ⊢ iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_scratch0), ((c : Thread nD τ).loc cc0_scratch0) ↦{fullShare} f) ∗ T) := by
  unfold Rest1
  iintro ⟨⟨R1, R2, R3, R4, R5, R6, R7, R8, R9, R10, R11, R12, R13, R14, R15⟩, HT⟩
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  iexact HT

theorem rest1_assoc (c : Dev nD) (T : sProp 𝕄) :
    iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_scratch0), ((c : Thread nD τ).loc cc0_scratch0) ↦{fullShare} f) ∗ T) = iprop(Rest1 (F := F) c ∗ T) :=
  BI.equiv_iff.mp ⟨rest1_in c T, rest1_out c T⟩

theorem PhiA1_eq (c : Dev nD) :
    (Pipeline.ΦA spec1 c : sProp 𝕄)
      = iprop(iprop(Rest1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]
  rw [rest1_assoc]; rfl

def PhiS1 (c : Dev nD) : (n : ℕ) → n ≤ cfg1.N → sProp 𝕄
  | 0, _ => Pipeline.ΦA spec1 c
  | n + 1, hn => iprop(iprop(Rest1 c ∗ owns (c : Thread nD τ) scM1_0 fullShare ((outsAt1 V c n hn).m) ∗ owns (c : Thread nD τ) scM1_1 fullShare ((outsAt1 V c n hn).l) ∗ owns (c : Thread nD τ) scM1_2 fullShare ((outsAt1 V c n hn).acc)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(Rest1 c ∗ owns (c : Thread nD τ) scM1_0 fullShare ((outsAt1 V c n hn).m) ∗ owns (c : Thread nD τ) scM1_1 fullShare ((outsAt1 V c n hn).l) ∗ owns (c : Thread nD τ) scM1_2 fullShare ((outsAt1 V c n hn).acc)) ∗ (∃ r, prngReg c r)) := rfl

theorem PhiS1_pos (c : Dev nD) (n : ℕ) (h : n ≤ cfg1.N) (hz : n ≠ 0) :
    PhiS1 V c n h = iprop(iprop(Rest1 c ∗ owns (c : Thread nD τ) scM1_0 fullShare ((outsAt1 V c (n - 1) (by omega)).m) ∗ owns (c : Thread nD τ) scM1_1 fullShare ((outsAt1 V c (n - 1) (by omega)).l) ∗ owns (c : Thread nD τ) scM1_2 fullShare ((outsAt1 V c (n - 1) (by omega)).acc)) ∗ (∃ r, prngReg c r)) := by
  cases n with
  | zero => exact absurd rfl hz
  | succ n => rfl

theorem PhiS1_any (c : Dev nD) (n : ℕ) (h : n ≤ cfg1.N) :
    PhiS1 V c n h ⊢ iprop(iprop(Rest1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  cases n with
  | zero => rw [PhiS1_zero V c 0 h rfl, PhiA1_eq]
  | succ n =>
    rw [PhiS1_succ]
    iintro ⟨⟨HR, HS0, HS1, HS2⟩, Hg⟩
    isplitl [HR HS0 HS1 HS2]
    · isplitl [HR]; · iexact HR
      isplitl [HS0]; · iexists _; iexact HS0
      isplitl [HS1]; · iexists _; iexact HS1
      iexists _; iexact HS2
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).o
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).o := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 8000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 8 = 0
  · have hc0 : cond1_0 (grid1.coords t) := (hcond1_0 t).mpr h0
    have hc1 : ¬cond1_1 (grid1.coords t) := fun h => by have h3 := (hcond1_1 t).mp h; omega
    rw [Dat.leavesExact_idle (dat1 V c) 5 t (idleAt1_5 t hc1) (noFlush1_5 t hc1)]
    rw [outsAt1_A V c t h0 hc0 hc1]
    unfold ptA1; dsimp only
    unfold sout1_A_0 sout1_A_1 sout1_A_2
    dsimp only [bufs1, ins1]
    rw [PhiS1_castSucc V c t]
    iintro ⟨HΦ, Ho, ⟨%d0, H0⟩, ⟨%d1, H1⟩, ⟨%d2, H2⟩, ⟨%d3, H3⟩, ⟨%d4, H4⟩, ⟨%d5, H5⟩⟩
    ihave HΦ' := (PhiS1_any V c _ _) $$ HΦ
    icases HΦ' with ⟨⟨HR, HS0, HS1, HS2⟩, Hg⟩
    iapply ((kernelRun1_A c _ (bufs1 t) (ins1 V c t) hc0 hc1).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, ⟨%es0, HS0⟩, ⟨%es1, HS1⟩, ⟨%es2, HS2⟩⟩
    isplitl [HR HS0 HS1 HS2 Hg]
    · isplitl [HR HS0 HS1 HS2]
      · isplitl [HR]; · iexact HR
        isplitl [HS0]; · ihave H' := (Ring.owns_of_writes_tiledL VS1_0 S1024x1.size) $$ HS0; iapply H'; ipureintro; sl_kernel_rfl
        isplitl [HS1]; · ihave H' := (Ring.owns_of_writes_tiledL VS1_1 S1024x1.size) $$ HS1; iapply H'; ipureintro; sl_kernel_rfl
        ihave H' := (Ring.owns_of_writes_tiledL VS1_2 S1024x1024.size) $$ HS2; iapply H'; ipureintro; sl_kernel_rfl
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hc0 : ¬cond1_0 (grid1.coords t) := fun h => h0 ((hcond1_0 t).mp h)
    have hz : t.val ≠ 0 := fun hz => h0 (by rw [hz])
    by_cases h1 : t.val % 8 = 7
    · have hc1 : cond1_1 (grid1.coords t) := (hcond1_1 t).mpr h1
      rw [show (dat1 V c).leavesExact 5 t = owns (c : Thread nD τ) (ms1_5 t) fullShare ((dat1 V c).after 5 t) from by
        unfold Dat.leavesExact; rw [liveAt1_5 t hc1], after1_5]
      rw [outsAt1_C V c t h0 h1 hc0 hc1]
      unfold ptC1; dsimp only
      unfold out1_C_5 sout1_C_0 sout1_C_1 sout1_C_2
      dsimp only [bufs1, ins1]
      rw [PhiS1_castSucc V c t, PhiS1_pos V c _ _ hz]
      iintro ⟨⟨⟨HR, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_C c _ (bufs1 t) (ins1 V c t) hc0 hc1 _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [HR HS0 HS1 HS2 Hg]
      · isplitl [HR HS0 HS1 HS2]
        · isplitl [HR]; · iexact HR
          isplitl [HS0]; · ihave H' := (Ring.owns_of_writes_tiledL VS1_0 S1024x1.size) $$ HS0; iapply H'; ipureintro; sl_kernel_rfl
          isplitl [HS1]; · ihave H' := (Ring.owns_of_writes_tiledL VS1_1 S1024x1.size) $$ HS1; iapply H'; ipureintro; sl_kernel_rfl
          ihave H' := (Ring.owns_of_writes_tiledL VS1_2 S1024x1024.size) $$ HS2; iapply H'; ipureintro; sl_kernel_rfl
        iexact Hg
      isplitl [Ho]; · iexact Ho
      isplitl [H0]; · iexact H0
      isplitl [H1]; · iexact H1
      isplitl [H2]; · iexact H2
      isplitl [H3]; · iexact H3
      isplitl [H4]; · iexact H4
      ihave H' := (Ring.owns_of_writes_tiledL VO1_5 S1x1024x1024.size) $$ H5; iapply H'; ipureintro; sl_kernel_rfl
    · have hc1 : ¬cond1_1 (grid1.coords t) := fun h => h1 ((hcond1_1 t).mp h)
      rw [Dat.leavesExact_idle (dat1 V c) 5 t (idleAt1_5 t hc1) (noFlush1_5 t hc1)]
      rw [outsAt1_B V c t h0 h1 hc0 hc1]
      unfold ptB1; dsimp only
      unfold sout1_B_0 sout1_B_1 sout1_B_2
      dsimp only [bufs1, ins1]
      rw [PhiS1_castSucc V c t, PhiS1_pos V c _ _ hz]
      iintro ⟨⟨⟨HR, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_B c _ (bufs1 t) (ins1 V c t) hc0 hc1 _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HR HS0 HS1 HS2 Hg]
      · isplitl [HR HS0 HS1 HS2]
        · isplitl [HR]; · iexact HR
          isplitl [HS0]; · ihave H' := (Ring.owns_of_writes_tiledL VS1_0 S1024x1.size) $$ HS0; iapply H'; ipureintro; sl_kernel_rfl
          isplitl [HS1]; · ihave H' := (Ring.owns_of_writes_tiledL VS1_1 S1024x1.size) $$ HS1; iapply H'; ipureintro; sl_kernel_rfl
          ihave H' := (Ring.owns_of_writes_tiledL VS1_2 S1024x1024.size) $$ HS2; iapply H'; ipureintro; sl_kernel_rfl
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

theorem Phi1_in (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi1_out (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_any V c _ _

end Region1

end Cert.Kernel.Hand

end
-- ==== Proof.KWhole.lean ====
import proofs.«401480_j41566693490738_3_alg».proof.Proof.KR0Body
import proofs.«401480_j41566693490738_3_alg».proof.Proof.KR1Body

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The two casts write their own results only. -/
theorem W1_of_ne (c : Dev nD) (b : Ref sig .tc) (h0 : b ≠ main_v0) (h1 : b ≠ main_v1) :
    W1 m c (Proc.devRef .tc b) = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (V2 m) c).arrAt_in w hw _).trans (A_eq1 (V2 m) c w))

theorem W3_main_arg0 (c : Dev nD) : W3 m c (Proc.devRef .tc main_arg0) = m ((c : Thread nD τ).loc main_arg0) :=
  (W3_in m c 3 rfl).trans ((W2_in m c 0 rfl).trans (W1_of_ne m c main_arg0 (by decide) (by decide)))
theorem W3_main_arg1 (c : Dev nD) : W3 m c (Proc.devRef .tc main_arg1) = m ((c : Thread nD τ).loc main_arg1) :=
  (W3_of_ne m c main_arg1 (by decide)).trans ((W2_of_ne m c main_arg1 (by decide)).trans (W1_of_ne m c main_arg1 (by decide) (by decide)))
theorem W3_main_arg2 (c : Dev nD) : W3 m c (Proc.devRef .tc main_arg2) = m ((c : Thread nD τ).loc main_arg2) :=
  (W3_of_ne m c main_arg2 (by decide)).trans ((W2_in m c 2 rfl).trans (W1_of_ne m c main_arg2 (by decide) (by decide)))
theorem W3_main_arg3 (c : Dev nD) : W3 m c (Proc.devRef .tc main_arg3) = m ((c : Thread nD τ).loc main_arg3) :=
  (W3_of_ne m c main_arg3 (by decide)).trans ((W2_of_ne m c main_arg3 (by decide)).trans (W1_of_ne m c main_arg3 (by decide) (by decide)))
theorem W3_main_arg4 (c : Dev nD) : W3 m c (Proc.devRef .tc main_arg4) = m ((c : Thread nD τ).loc main_arg4) :=
  (W3_of_ne m c main_arg4 (by decide)).trans ((W2_in m c 4 rfl).trans (W1_of_ne m c main_arg4 (by decide) (by decide)))

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 0).pre c (fun _ => fullShare) (adm (F := F) 0).1 ∗ Pipeline.scopedRest (Pipeline.pin (pcfgs (F := F)) adm 0).spec c)
        ⊢ (Pipeline.ΦA spec0 c : sProp 𝕄) := by
      unfold Pipeline.ΦA
      iintro ⟨Hp, -, Hr⟩
      isplitl [Hr]; · iexact Hr
      iexact Hp
    exact h1.trans (Phi0_in (V1 m) c)
  hout c := by
    rw [Pipeline.ownSems0_none]
    have h1 : (Pipeline.ΦA spec0 c : sProp 𝕄)
        ⊢ iprop((∃ r, prngReg c r) ∗ BI.emp ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (Phi0_out (V1 m) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (adm (F := F) 1).1 ∗ Pipeline.scopedRest (Pipeline.pin (pcfgs (F := F)) adm 1).spec c)
        ⊢ (Pipeline.ΦA spec1 c : sProp 𝕄) := by
      unfold Pipeline.ΦA
      iintro ⟨Hp, -, Hr⟩
      isplitl [Hr]; · iexact Hr
      iexact Hp
    exact h1.trans (Phi1_in (V2 m) c)
  hout c := by
    rw [Pipeline.ownSems0_none]
    have h1 : (Pipeline.ΦA spec1 c : sProp 𝕄)
        ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (Phi1_out (V2 m) c).trans h1
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh' (W0 m)),
    .region (reg0 m),
    .region (reg1 m) ]
theorem main_run (c : Dev nD) : main (F := F) c = Pipeline.Seg.run (segs m) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

theorem run_result : θ_run defs (onTc (τ := τ) (main (F := F))) ⟨m, fun _ => 0, ρ⟩ (fun r => ∀ c : Dev nD,
      r.2.mem ((c.tc : Thread nD τ).loc main_v3) = (dat1 (V2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v3 (by decide))).trans (W3_arr m c 5),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.Kernel.Hand

end
-- ==== Proof.R0Defs.lean ====
import proofs.«401480_j41566693490738_3_alg».proof.Proof.Gen.KernelIdeal.Launch
import proofs.«401480_j41566693490738_3_alg».proof.Proof.Gen.KernelIdeal.Skeleton
import proofs.«401480_j41566693490738_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel

theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x1024 .f32 := win0_8.stage (cfg0.slots t 8)
abbrev hs0_8 (t : Fin cfg0.N) : (ms0_8 t).IsWhole := hstage0_8 ((cfg0.slots t 8).cast nbuf0_8)

abbrev scM0_0 : Memref sig .tc .vmem S1x1024 .f32 := Memref.whole cc0_scratch0

abbrev VO0_5 : View sig .tc .vmem S1x512x1024 .bf16 := (Memref.whole cc0_stg5_0 : Memref sig .tc .vmem S1x512x1024 .bf16).view
abbrev VO0_6 : View sig .tc .vmem S1x512x1024 .bf16 := (Memref.whole cc0_stg6_0 : Memref sig .tc .vmem S1x512x1024 .bf16).view
abbrev VO0_7 : View sig .tc .vmem S1x512x1024 .bf16 := (Memref.whole cc0_stg7_0 : Memref sig .tc .vmem S1x512x1024 .bf16).view
abbrev VO0_8 : View sig .tc .vmem S1x1x1024 .f32 := (Memref.whole cc0_stg8_0 : Memref sig .tc .vmem S1x1x1024 .f32).view
abbrev VS0_0 : View sig .tc .vmem S1x1024 .f32 := scM0_0.view

end Region0

/-- The buffers one call of the first body receives, each whole. -/
structure Bufs0 where
  a2 : Memref sig .tc .vmem S1x512x1024 .f32
  h2 : a2.IsWhole
  a3 : Memref sig .tc .vmem S1024x1024 .bf16
  h3 : a3.IsWhole
  a4 : Memref sig .tc .vmem S1024 .f32
  h4 : a4.IsWhole
  a5 : Memref sig .tc .vmem S1024x1024 .bf16
  h5 : a5.IsWhole
  a6 : Memref sig .tc .vmem S1024 .f32
  h6 : a6.IsWhole
  a7 : Memref sig .tc .vmem S1x512x1024 .bf16
  h7 : a7.IsWhole
  a8 : Memref sig .tc .vmem S1x512x1024 .bf16
  h8 : a8.IsWhole
  a9 : Memref sig .tc .vmem S1x512x1024 .bf16
  h9 : a9.IsWhole
  a10 : Memref sig .tc .vmem S1x1x1024 .f32
  h10 : a10.IsWhole
  a11 : Memref sig .tc .vmem S1x1024 .f32
  h11 : a11.IsWhole

/-- The five blocks one call of the first body reads. -/
structure Ins0 (F : FTy → Type) [FloatOps F] where
  x0 : Vec F S1x512x1024 .f32
  x1 : Vec F S1024x1024 .bf16
  x2 : Vec F S1024 .f32
  x3 : Vec F S1024x1024 .bf16
  x4 : Vec F S1024 .f32

end Cert.KernelIdeal.Hand

end
-- ==== Proof.R0RunA.lean ====
import proofs.«401480_j41566693490738_3_alg».proof.Proof.R0Defs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_A (c : Dev nD) (i : grid0.Coords) (b : Bufs0) (x : Ins0 F) (hc0 : cond0_0 i) (hc1 : ¬cond0_1 i) :
    Σ' (L5 : List (View.Piece (Elt F) S1x512x1024 .bf16)) (L6 : List (View.Piece (Elt F) S1x512x1024 .bf16)) (L7 : List (View.Piece (Elt F) S1x512x1024 .bf16)), { LS0 : List (View.Piece (Elt F) S1x1024 .f32) //
      ∀ (xi8 : Vec F S1x1x1024 .f32) (E : Set ℕ) (K : PUnit → sProp 𝕄),
        iprop(owns (c : Thread nD τ) b.a2 fullShare x.x0 ∗ owns (c : Thread nD τ) b.a3 fullShare x.x1 ∗ owns (c : Thread nD τ) b.a4 fullShare x.x2 ∗ owns (c : Thread nD τ) b.a5 fullShare x.x3 ∗ owns (c : Thread nD τ) b.a6 fullShare x.x4
            ∗ (∃ d, owns (c : Thread nD τ) b.a7 fullShare d) ∗ (∃ d, owns (c : Thread nD τ) b.a8 fullShare d) ∗ (∃ d, owns (c : Thread nD τ) b.a9 fullShare d) ∗ owns (c : Thread nD τ) b.a10 fullShare xi8 ∗ (∃ d, owns (c : Thread nD τ) b.a11 fullShare d)
            ∗ (iprop(owns (c : Thread nD τ) b.a2 fullShare x.x0 ∗ owns (c : Thread nD τ) b.a3 fullShare x.x1 ∗ owns (c : Thread nD τ) b.a4 fullShare x.x2 ∗ owns (c : Thread nD τ) b.a5 fullShare x.x3 ∗ owns (c : Thread nD τ) b.a6 fullShare x.x4
                ∗ (∃ f, b.a7.view.loc (c : Thread nD τ) ↦[b.a7.view.set]{fullShare} b.a7.view.writes (Elt F) f L5) ∗ (∃ f, b.a8.view.loc (c : Thread nD τ) ↦[b.a8.view.set]{fullShare} b.a8.view.writes (Elt F) f L6) ∗ (∃ f, b.a9.view.loc (c : Thread nD τ) ↦[b.a9.view.set]{fullShare} b.a9.view.writes (Elt F) f L7) ∗ owns (c : Thread nD τ) b.a10 fullShare xi8 ∗ (∃ f, b.a11.view.loc (c : Thread nD τ) ↦[b.a11.view.set]{fullShare} b.a11.view.writes (Elt F) f LS0)) -∗ K ⟨⟩))
          ⊢ wp frame (wpE (defs₀ (F := F)) Variants.none c none) E (cc0__qk_proj_kernel i b.a2 b.h2 b.a3 b.h3 b.a4 b.h4 b.a5 b.h5 b.a6 b.h6 b.a7 b.h7 b.a8 b.h8 b.a9 b.h9 b.a10 b.h10 b.a11 b.h11) K } := by
  refine ⟨?_, ?_, ?_, ?_, fun xi8 E K => ?run⟩
  case run =>
    simp only [cc0__qk_proj_kernel_eq_skeleton]; unfold cc0__qk_proj_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%ds0, %fs0, -, HS0⟩, Hk⟩
    obtain rfl := b.h2.eq_unread hf0; obtain rfl := b.h3.eq_unread hf1; obtain rfl := b.h4.eq_unread hf2; obtain rfl := b.h5.eq_unread hf3; obtain rfl := b.h6.eq_unread hf4
    obtain rfl := b.h10.eq_unread hf8
    sl_exec (disch := first | exact hc0 | exact hc1)
    sl_step
    iapply Hk
    isplitl [H0]
    · iexists _; isplitr; · ipureintro; exact b.h2.read_unread _
      iexact H0
    isplitl [H1]
    · iexists _; isplitr; · ipureintro; exact b.h3.read_unread _
      iexact H1
    isplitl [H2]
    · iexists _; isplitr; · ipureintro; exact b.h4.read_unread _
      iexact H2
    isplitl [H3]
    · iexists _; isplitr; · ipureintro; exact b.h5.read_unread _
      iexact H3
    isplitl [H4]
    · iexists _; isplitr; · ipureintro; exact b.h6.read_unread _
      iexact H4
    isplitl [H5]; · iexists _; iexact H5
    isplitl [H6]; · iexists _; iexact H6
    isplitl [H7]; · iexists _; iexact H7
    isplitl [H8]
    · iexists _; isplitr; · ipureintro; exact b.h10.read_unread _
      iexact H8
    iexists _; iexact HS0

end Cert.KernelIdeal.Hand

end
-- ==== Proof.R0RunB.lean ====
import proofs.«401480_j41566693490738_3_alg».proof.Proof.R0Defs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_B (c : Dev nD) (i : grid0.Coords) (b : Bufs0) (x : Ins0 F) (hc0 : ¬cond0_0 i) (hc1 : ¬cond0_1 i) (xs0 : Vec F S1x1024 .f32) :
    Σ' (L5 : List (View.Piece (Elt F) S1x512x1024 .bf16)) (L6 : List (View.Piece (Elt F) S1x512x1024 .bf16)) (L7 : List (View.Piece (Elt F) S1x512x1024 .bf16)), { LS0 : List (View.Piece (Elt F) S1x1024 .f32) //
      ∀ (xi8 : Vec F S1x1x1024 .f32) (E : Set ℕ) (K : PUnit → sProp 𝕄),
        iprop(owns (c : Thread nD τ) b.a2 fullShare x.x0 ∗ owns (c : Thread nD τ) b.a3 fullShare x.x1 ∗ owns (c : Thread nD τ) b.a4 fullShare x.x2 ∗ owns (c : Thread nD τ) b.a5 fullShare x.x3 ∗ owns (c : Thread nD τ) b.a6 fullShare x.x4
            ∗ (∃ d, owns (c : Thread nD τ) b.a7 fullShare d) ∗ (∃ d, owns (c : Thread nD τ) b.a8 fullShare d) ∗ (∃ d, owns (c : Thread nD τ) b.a9 fullShare d) ∗ owns (c : Thread nD τ) b.a10 fullShare xi8 ∗ owns (c : Thread nD τ) b.a11 fullShare xs0
            ∗ (iprop(owns (c : Thread nD τ) b.a2 fullShare x.x0 ∗ owns (c : Thread nD τ) b.a3 fullShare x.x1 ∗ owns (c : Thread nD τ) b.a4 fullShare x.x2 ∗ owns (c : Thread nD τ) b.a5 fullShare x.x3 ∗ owns (c : Thread nD τ) b.a6 fullShare x.x4
                ∗ (∃ f, b.a7.view.loc (c : Thread nD τ) ↦[b.a7.view.set]{fullShare} b.a7.view.writes (Elt F) f L5) ∗ (∃ f, b.a8.view.loc (c : Thread nD τ) ↦[b.a8.view.set]{fullShare} b.a8.view.writes (Elt F) f L6) ∗ (∃ f, b.a9.view.loc (c : Thread nD τ) ↦[b.a9.view.set]{fullShare} b.a9.view.writes (Elt F) f L7) ∗ owns (c : Thread nD τ) b.a10 fullShare xi8 ∗ (∃ f, b.a11.view.loc (c : Thread nD τ) ↦[b.a11.view.set]{fullShare} b.a11.view.writes (Elt F) f LS0)) -∗ K ⟨⟩))
          ⊢ wp frame (wpE (defs₀ (F := F)) Variants.none c none) E (cc0__qk_proj_kernel i b.a2 b.h2 b.a3 b.h3 b.a4 b.h4 b.a5 b.h5 b.a6 b.h6 b.a7 b.h7 b.a8 b.h8 b.a9 b.h9 b.a10 b.h10 b.a11 b.h11) K } := by
  refine ⟨?_, ?_, ?_, ?_, fun xi8 E K => ?run⟩
  case run =>
    simp only [cc0__qk_proj_kernel_eq_skeleton]; unfold cc0__qk_proj_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%fs0, %hfs0, HS0⟩, Hk⟩
    obtain rfl := b.h2.eq_unread hf0; obtain rfl := b.h3.eq_unread hf1; obtain rfl := b.h4.eq_unread hf2; obtain rfl := b.h5.eq_unread hf3; obtain rfl := b.h6.eq_unread hf4
    obtain rfl := b.h10.eq_unread hf8; obtain rfl := b.h11.eq_unread hfs0
    sl_exec (disch := first | exact hc0 | exact hc1)
    sl_step
    iapply Hk
    isplitl [H0]
    · iexists _; isplitr; · ipureintro; exact b.h2.read_unread _
      iexact H0
    isplitl [H1]
    · iexists _; isplitr; · ipureintro; exact b.h3.read_unread _
      iexact H1
    isplitl [H2]
    · iexists _; isplitr; · ipureintro; exact b.h4.read_unread _
      iexact H2
    isplitl [H3]
    · iexists _; isplitr; · ipureintro; exact b.h5.read_unread _
      iexact H3
    isplitl [H4]
    · iexists _; isplitr; · ipureintro; exact b.h6.read_unread _
      iexact H4
    isplitl [H5]; · iexists _; iexact H5
    isplitl [H6]; · iexists _; iexact H6
    isplitl [H7]; · iexists _; iexact H7
    isplitl [H8]
    · iexists _; isplitr; · ipureintro; exact b.h10.read_unread _
      iexact H8
    iexists _; iexact HS0

end Cert.KernelIdeal.Hand

end
-- ==== Proof.R0RunC.lean ====
import proofs.«401480_j41566693490738_3_alg».proof.Proof.R0Defs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_C (c : Dev nD) (i : grid0.Coords) (b : Bufs0) (x : Ins0 F) (hc0 : ¬cond0_0 i) (hc1 : cond0_1 i) (xs0 : Vec F S1x1024 .f32) :
    Σ' (L5 : List (View.Piece (Elt F) S1x512x1024 .bf16)) (L6 : List (View.Piece (Elt F) S1x512x1024 .bf16)) (L7 : List (View.Piece (Elt F) S1x512x1024 .bf16)) (L8 : List (View.Piece (Elt F) S1x1x1024 .f32)), { LS0 : List (View.Piece (Elt F) S1x1024 .f32) //
      ∀ (E : Set ℕ) (K : PUnit → sProp 𝕄),
        iprop(owns (c : Thread nD τ) b.a2 fullShare x.x0 ∗ owns (c : Thread nD τ) b.a3 fullShare x.x1 ∗ owns (c : Thread nD τ) b.a4 fullShare x.x2 ∗ owns (c : Thread nD τ) b.a5 fullShare x.x3 ∗ owns (c : Thread nD τ) b.a6 fullShare x.x4
            ∗ (∃ d, owns (c : Thread nD τ) b.a7 fullShare d) ∗ (∃ d, owns (c : Thread nD τ) b.a8 fullShare d) ∗ (∃ d, owns (c : Thread nD τ) b.a9 fullShare d) ∗ (∃ d, owns (c : Thread nD τ) b.a10 fullShare d) ∗ owns (c : Thread nD τ) b.a11 fullShare xs0
            ∗ (iprop(owns (c : Thread nD τ) b.a2 fullShare x.x0 ∗ owns (c : Thread nD τ) b.a3 fullShare x.x1 ∗ owns (c : Thread nD τ) b.a4 fullShare x.x2 ∗ owns (c : Thread nD τ) b.a5 fullShare x.x3 ∗ owns (c : Thread nD τ) b.a6 fullShare x.x4
                ∗ (∃ f, b.a7.view.loc (c : Thread nD τ) ↦[b.a7.view.set]{fullShare} b.a7.view.writes (Elt F) f L5) ∗ (∃ f, b.a8.view.loc (c : Thread nD τ) ↦[b.a8.view.set]{fullShare} b.a8.view.writes (Elt F) f L6) ∗ (∃ f, b.a9.view.loc (c : Thread nD τ) ↦[b.a9.view.set]{fullShare} b.a9.view.writes (Elt F) f L7) ∗ (∃ f, b.a10.view.loc (c : Thread nD τ) ↦[b.a10.view.set]{fullShare} b.a10.view.writes (Elt F) f L8) ∗ (∃ f, b.a11.view.loc (c : Thread nD τ) ↦[b.a11.view.set]{fullShare} b.a11.view.writes (Elt F) f LS0)) -∗ K ⟨⟩))
          ⊢ wp frame (wpE (defs₀ (F := F)) Variants.none c none) E (cc0__qk_proj_kernel i b.a2 b.h2 b.a3 b.h3 b.a4 b.h4 b.a5 b.h5 b.a6 b.h6 b.a7 b.h7 b.a8 b.h8 b.a9 b.h9 b.a10 b.h10 b.a11 b.h11) K } := by
  refine ⟨?_, ?_, ?_, ?_, ?_, fun E K => ?run⟩
  case run =>
    simp only [cc0__qk_proj_kernel_eq_skeleton]; unfold cc0__qk_proj_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%fs0, %hfs0, HS0⟩, Hk⟩
    obtain rfl := b.h2.eq_unread hf0; obtain rfl := b.h3.eq_unread hf1; obtain rfl := b.h4.eq_unread hf2; obtain rfl := b.h5.eq_unread hf3; obtain rfl := b.h6.eq_unread hf4
    obtain rfl := b.h11.eq_unread hfs0
    sl_exec (disch := first | exact hc0 | exact hc1)
    sl_step
    iapply Hk
    isplitl [H0]
    · iexists _; isplitr; · ipureintro; exact b.h2.read_unread _
      iexact H0
    isplitl [H1]
    · iexists _; isplitr; · ipureintro; exact b.h3.read_unread _
      iexact H1
    isplitl [H2]
    · iexists _; isplitr; · ipureintro; exact b.h4.read_unread _
      iexact H2
    isplitl [H3]
    · iexists _; isplitr; · ipureintro; exact b.h5.read_unread _
      iexact H3
    isplitl [H4]
    · iexists _; isplitr; · ipureintro; exact b.h6.read_unread _
      iexact H4
    isplitl [H5]; · iexists _; iexact H5
    isplitl [H6]; · iexists _; iexact H6
    isplitl [H7]; · iexists _; iexact H7
    isplitl [H8]; · iexists _; iexact H8
    iexists _; iexact HS0

end Cert.KernelIdeal.Hand

end
-- ==== Proof.R0Outs.lean ====
import proofs.«401480_j41566693490738_3_alg».proof.Proof.R0RunA
import proofs.«401480_j41566693490738_3_alg».proof.Proof.R0RunB
import proofs.«401480_j41566693490738_3_alg».proof.Proof.R0RunC

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (b : Bufs0) (x : Ins0 F)

section A
variable (hc0 : cond0_0 i) (hc1 : ¬cond0_1 i)
def out0_A_5 : Vec F S1x512x1024 .bf16 := VO0_5.read (Elt F) (VO0_5.writes (Elt F) VO0_5.junk (kernelRun0_A c i b x hc0 hc1).1)
theorem out0_A_5_cover : ∀ y : S1x512x1024.Idx, ∃ pc ∈ (kernelRun0_A c i b x hc0 hc1).1, y ∈ pc.1.set := View.cover_of_tiledL _ S1x512x1024.size (by sl_kernel_rfl)
def out0_A_6 : Vec F S1x512x1024 .bf16 := VO0_6.read (Elt F) (VO0_6.writes (Elt F) VO0_6.junk (kernelRun0_A c i b x hc0 hc1).2.1)
theorem out0_A_6_cover : ∀ y : S1x512x1024.Idx, ∃ pc ∈ (kernelRun0_A c i b x hc0 hc1).2.1, y ∈ pc.1.set := View.cover_of_tiledL _ S1x512x1024.size (by sl_kernel_rfl)
def out0_A_7 : Vec F S1x512x1024 .bf16 := VO0_7.read (Elt F) (VO0_7.writes (Elt F) VO0_7.junk (kernelRun0_A c i b x hc0 hc1).2.2.1)
theorem out0_A_7_cover : ∀ y : S1x512x1024.Idx, ∃ pc ∈ (kernelRun0_A c i b x hc0 hc1).2.2.1, y ∈ pc.1.set := View.cover_of_tiledL _ S1x512x1024.size (by sl_kernel_rfl)
def sout0_A_0 : Vec F S1x1024 .f32 := VS0_0.read (Elt F) (VS0_0.writes (Elt F) VS0_0.junk (kernelRun0_A c i b x hc0 hc1).2.2.2.1)
theorem sout0_A_0_cover : ∀ y : S1x1024.Idx, ∃ pc ∈ (kernelRun0_A c i b x hc0 hc1).2.2.2.1, y ∈ pc.1.set := View.cover_of_tiledL _ S1x1024.size (by sl_kernel_rfl)
end A

section B
variable (hc0 : ¬cond0_0 i) (hc1 : ¬cond0_1 i) (xs0 : Vec F S1x1024 .f32)
def out0_B_5 : Vec F S1x512x1024 .bf16 := VO0_5.read (Elt F) (VO0_5.writes (Elt F) VO0_5.junk (kernelRun0_B c i b x hc0 hc1 xs0).1)
theorem out0_B_5_cover : ∀ y : S1x512x1024.Idx, ∃ pc ∈ (kernelRun0_B c i b x hc0 hc1 xs0).1, y ∈ pc.1.set := View.cover_of_tiledL _ S1x512x1024.size (by sl_kernel_rfl)
def out0_B_6 : Vec F S1x512x1024 .bf16 := VO0_6.read (Elt F) (VO0_6.writes (Elt F) VO0_6.junk (kernelRun0_B c i b x hc0 hc1 xs0).2.1)
theorem out0_B_6_cover : ∀ y : S1x512x1024.Idx, ∃ pc ∈ (kernelRun0_B c i b x hc0 hc1 xs0).2.1, y ∈ pc.1.set := View.cover_of_tiledL _ S1x512x1024.size (by sl_kernel_rfl)
def out0_B_7 : Vec F S1x512x1024 .bf16 := VO0_7.read (Elt F) (VO0_7.writes (Elt F) VO0_7.junk (kernelRun0_B c i b x hc0 hc1 xs0).2.2.1)
theorem out0_B_7_cover : ∀ y : S1x512x1024.Idx, ∃ pc ∈ (kernelRun0_B c i b x hc0 hc1 xs0).2.2.1, y ∈ pc.1.set := View.cover_of_tiledL _ S1x512x1024.size (by sl_kernel_rfl)
def sout0_B_0 : Vec F S1x1024 .f32 := VS0_0.read (Elt F) (VS0_0.writes (Elt F) VS0_0.junk (kernelRun0_B c i b x hc0 hc1 xs0).2.2.2.1)
theorem sout0_B_0_cover : ∀ y : S1x1024.Idx, ∃ pc ∈ (kernelRun0_B c i b x hc0 hc1 xs0).2.2.2.1, y ∈ pc.1.set := View.cover_of_tiledL _ S1x1024.size (by sl_kernel_rfl)
end B

section C
variable (hc0 : ¬cond0_0 i) (hc1 : cond0_1 i) (xs0 : Vec F S1x1024 .f32)
def out0_C_5 : Vec F S1x512x1024 .bf16 := VO0_5.read (Elt F) (VO0_5.writes (Elt F) VO0_5.junk (kernelRun0_C c i b x hc0 hc1 xs0).1)
theorem out0_C_5_cover : ∀ y : S1x512x1024.Idx, ∃ pc ∈ (kernelRun0_C c i b x hc0 hc1 xs0).1, y ∈ pc.1.set := View.cover_of_tiledL _ S1x512x1024.size (by sl_kernel_rfl)
def out0_C_6 : Vec F S1x512x1024 .bf16 := VO0_6.read (Elt F) (VO0_6.writes (Elt F) VO0_6.junk (kernelRun0_C c i b x hc0 hc1 xs0).2.1)
theorem out0_C_6_cover : ∀ y : S1x512x1024.Idx, ∃ pc ∈ (kernelRun0_C c i b x hc0 hc1 xs0).2.1, y ∈ pc.1.set := View.cover_of_tiledL _ S1x512x1024.size (by sl_kernel_rfl)
def out0_C_7 : Vec F S1x512x1024 .bf16 := VO0_7.read (Elt F) (VO0_7.writes (Elt F) VO0_7.junk (kernelRun0_C c i b x hc0 hc1 xs0).2.2.1)
theorem out0_C_7_cover : ∀ y : S1x512x1024.Idx, ∃ pc ∈ (kernelRun0_C c i b x hc0 hc1 xs0).2.2.1, y ∈ pc.1.set := View.cover_of_tiledL _ S1x512x1024.size (by sl_kernel_rfl)
def out0_C_8 : Vec F S1x1x1024 .f32 := VO0_8.read (Elt F) (VO0_8.writes (Elt F) VO0_8.junk (kernelRun0_C c i b x hc0 hc1 xs0).2.2.2.1)
theorem out0_C_8_cover : ∀ y : S1x1x1024.Idx, ∃ pc ∈ (kernelRun0_C c i b x hc0 hc1 xs0).2.2.2.1, y ∈ pc.1.set := View.cover_of_tiledL _ S1x1x1024.size (by sl_kernel_rfl)
def sout0_C_0 : Vec F S1x1024 .f32 := VS0_0.read (Elt F) (VS0_0.writes (Elt F) VS0_0.junk (kernelRun0_C c i b x hc0 hc1 xs0).2.2.2.2.1)
theorem sout0_C_0_cover : ∀ y : S1x1024.Idx, ∃ pc ∈ (kernelRun0_C c i b x hc0 hc1 xs0).2.2.2.2.1, y ∈ pc.1.set := View.cover_of_tiledL _ S1x1024.size (by sl_kernel_rfl)
end C

end Cert.KernelIdeal.Hand

end
-- ==== Proof.R0Body.lean ====
import proofs.«401480_j41566693490738_3_alg».proof.Proof.R0Outs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

structure Outs0 (F : FTy → Type) [FloatOps F] where
  q : Vec F S1x512x1024 .bf16
  k : Vec F S1x512x1024 .bf16
  xb : Vec F S1x512x1024 .bf16
  mean : Vec F S1x1x1024 .f32
  sc : Vec F S1x1024 .f32

section Region0

variable (V : (c : Dev nD) → (b : Ref sig .tc) → Buf (Elt F) ((c : Thread nD τ).loc b))

/-- The call at grid point `t`: its buffers and its blocks. -/
abbrev bufs0 (t : Fin cfg0.N) : Bufs0 := ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, scM0_0, Memref.isWhole_whole _⟩
abbrev ins0 (c : Dev nD) (t : Fin cfg0.N) : Ins0 F := ⟨iblk0 V c 0 t, iblk0 V c 1 t, iblk0 V c 2 t, iblk0 V c 3 t, iblk0 V c 4 t⟩

def ptA0 (c : Dev nD) (t : Fin cfg0.N) (hc0 : cond0_0 (grid0.coords t)) (hc1 : ¬cond0_1 (grid0.coords t)) : Outs0 F where
  q := out0_A_5 c _ (bufs0 t) (ins0 V c t) hc0 hc1
  k := out0_A_6 c _ (bufs0 t) (ins0 V c t) hc0 hc1
  xb := out0_A_7 c _ (bufs0 t) (ins0 V c t) hc0 hc1
  mean := VO0_8.read (Elt F) VO0_8.junk
  sc := sout0_A_0 c _ (bufs0 t) (ins0 V c t) hc0 hc1

def ptB0 (c : Dev nD) (t : Fin cfg0.N) (hc0 : ¬cond0_0 (grid0.coords t)) (hc1 : ¬cond0_1 (grid0.coords t)) (xs0 : Vec F S1x1024 .f32) : Outs0 F where
  q := out0_B_5 c _ (bufs0 t) (ins0 V c t) hc0 hc1 xs0
  k := out0_B_6 c _ (bufs0 t) (ins0 V c t) hc0 hc1 xs0
  xb := out0_B_7 c _ (bufs0 t) (ins0 V c t) hc0 hc1 xs0
  mean := VO0_8.read (Elt F) VO0_8.junk
  sc := sout0_B_0 c _ (bufs0 t) (ins0 V c t) hc0 hc1 xs0

def ptC0 (c : Dev nD) (t : Fin cfg0.N) (hc0 : ¬cond0_0 (grid0.coords t)) (hc1 : cond0_1 (grid0.coords t)) (xs0 : Vec F S1x1024 .f32) : Outs0 F where
  q := out0_C_5 c _ (bufs0 t) (ins0 V c t) hc0 hc1 xs0
  k := out0_C_6 c _ (bufs0 t) (ins0 V c t) hc0 hc1 xs0
  xb := out0_C_7 c _ (bufs0 t) (ins0 V c t) hc0 hc1 xs0
  mean := out0_C_8 c _ (bufs0 t) (ins0 V c t) hc0 hc1 xs0
  sc := sout0_C_0 c _ (bufs0 t) (ins0 V c t) hc0 hc1 xs0

def outsAt0 (c : Dev nD) : (n : ℕ) → n < cfg0.N → Outs0 F
  | 0, hn => ptA0 V c ⟨0, hn⟩ ((hcond0_0 ⟨0, hn⟩).mpr (Nat.zero_mod _)) (fun h => by have h3 := (hcond0_1 ⟨0, hn⟩).mp h; (try dsimp only at h3); omega)
  | n + 1, hn =>
    if h0 : (n + 1) % 4 = 0 then
      ptA0 V c ⟨n + 1, hn⟩ ((hcond0_0 ⟨n + 1, hn⟩).mpr h0) (fun h => by have h3 := (hcond0_1 ⟨n + 1, hn⟩).mp h; (try dsimp only at h3); omega)
    else if h1 : (n + 1) % 4 = 3 then
      ptC0 V c ⟨n + 1, hn⟩ (fun h => h0 ((hcond0_0 ⟨n + 1, hn⟩).mp h)) ((hcond0_1 ⟨n + 1, hn⟩).mpr h1) (outsAt0 c n (Nat.lt_of_succ_lt hn)).sc
    else
      ptB0 V c ⟨n + 1, hn⟩ (fun h => h0 ((hcond0_0 ⟨n + 1, hn⟩).mp h)) (fun h => h1 ((hcond0_1 ⟨n + 1, hn⟩).mp h)) (outsAt0 c n (Nat.lt_of_succ_lt hn)).sc

theorem outsAt0_A (c : Dev nD) (t : Fin cfg0.N) (h0 : t.val % 4 = 0) (hc0 : cond0_0 (grid0.coords t)) (hc1 : ¬cond0_1 (grid0.coords t)) :
    outsAt0 V c t.val t.isLt = ptA0 V c t hc0 hc1 := by
  obtain ⟨n, hn⟩ := t
  cases n with
  | zero => rfl
  | succ n => exact (dif_pos h0).trans rfl

theorem outsAt0_B (c : Dev nD) (t : Fin cfg0.N) (h0 : ¬t.val % 4 = 0) (h1 : ¬t.val % 4 = 3) (hc0 : ¬cond0_0 (grid0.coords t)) (hc1 : ¬cond0_1 (grid0.coords t)) :
    outsAt0 V c t.val t.isLt = ptB0 V c t hc0 hc1 (outsAt0 V c (t.val - 1) (Nat.lt_of_le_of_lt (Nat.sub_le _ _) t.isLt)).sc := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) (hc0 : ¬cond0_0 (grid0.coords t)) (hc1 : cond0_1 (grid0.coords t)) :
    outsAt0 V c t.val t.isLt = ptC0 V c t hc0 hc1 (outsAt0 V c (t.val - 1) (Nat.lt_of_le_of_lt (Nat.sub_le _ _) t.isLt)).sc := by
  obtain ⟨n, hn⟩ := t
  cases n with
  | zero => exact absurd (Nat.zero_mod _) h0
  | succ n => exact (dif_neg h0).trans ((dif_pos h1).trans rfl)

def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).sc) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).sc) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).sc) ∗ Rest0 c) ∗ (∃ r, prngReg c r)) := by
  cases n with
  | zero => exact absurd rfl hz
  | succ n => rfl

theorem PhiS0_any (c : Dev nD) (n : ℕ) (h : n ≤ cfg0.N) :
    PhiS0 V c n h ⊢ iprop(iprop((∃ d, owns (c : Thread nD τ) scM0_0 fullShare d) ∗ Rest0 c) ∗ (∃ r, prngReg c r)) := by
  cases n with
  | zero => rw [PhiS0_zero V c 0 h rfl, PhiA0_eq]
  | succ n =>
    rw [PhiS0_succ]
    iintro ⟨⟨HS0, HR⟩, Hg⟩
    isplitl [HS0 HR]
    · isplitl [HS0]; · iexists _; iexact HS0
      iexact HR
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).q
    | ⟨6, _⟩ => (outsAt0 V c t.val t.isLt).k
    | ⟨7, _⟩ => (outsAt0 V c t.val t.isLt).xb
    | ⟨8, _⟩ => (outsAt0 V c t.val t.isLt).mean
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).q := by dsimp only [dat0]
theorem after0_6 (c : Dev nD) (t : Fin cfg0.N) : (dat0 V c).after 6 t = (outsAt0 V c t.val t.isLt).k := by dsimp only [dat0]
theorem after0_7 (c : Dev nD) (t : Fin cfg0.N) : (dat0 V c).after 7 t = (outsAt0 V c t.val t.isLt).xb := by dsimp only [dat0]
theorem after0_8 (c : Dev nD) (t : Fin cfg0.N) : (dat0 V c).after 8 t = (outsAt0 V c t.val t.isLt).mean := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t
    ∗ (dat0 V c).leavesExact 6 t ∗ (dat0 V c).leavesExact 7 t ∗ (dat0 V c).leavesExact 8 t)

set_option maxHeartbeats 8000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  by_cases h0 : t.val % 4 = 0
  · have hc0 : cond0_0 (grid0.coords t) := (hcond0_0 t).mpr h0
    have hc1 : ¬cond0_1 (grid0.coords t) := fun h => by have h3 := (hcond0_1 t).mp h; omega
    rw [Dat.leavesExact_idle (dat0 V c) 8 t (idleAt0_8 t hc1) (noFlush0_8 t hc1)]
    rw [outsAt0_A V c t h0 hc0 hc1]
    unfold ptA0; dsimp only
    unfold out0_A_5 out0_A_6 out0_A_7 sout0_A_0
    dsimp only [bufs0, ins0]
    rw [PhiS0_castSucc V c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ' := (PhiS0_any V c _ _) $$ HΦ
    icases HΦ' with ⟨⟨HS0, HR⟩, Hg⟩
    iapply ((kernelRun0_A c _ (bufs0 t) (ins0 V c t) hc0 hc1).2.2.2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    isplitl [HS0]; · iexact HS0
    iintro ⟨H0, H1, H2, H3, H4, ⟨%e5, H5⟩, ⟨%e6, H6⟩, ⟨%e7, H7⟩, H8, ⟨%es0, HS0⟩⟩
    isplitl [HS0 HR Hg]
    · isplitl [HS0 HR]
      · isplitl [HS0]; · ihave H' := (Ring.owns_of_writes_tiledL VS0_0 S1x1024.size) $$ HS0; iapply H'; ipureintro; sl_kernel_rfl
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · ihave H' := (Ring.owns_of_writes_tiledL VO0_5 S1x512x1024.size) $$ H5; iapply H'; ipureintro; sl_kernel_rfl
    isplitl [H6]; · ihave H' := (Ring.owns_of_writes_tiledL VO0_6 S1x512x1024.size) $$ H6; iapply H'; ipureintro; sl_kernel_rfl
    isplitl [H7]; · ihave H' := (Ring.owns_of_writes_tiledL VO0_7 S1x512x1024.size) $$ H7; iapply H'; ipureintro; sl_kernel_rfl
    iexists _; iexact H8
  · have hc0 : ¬cond0_0 (grid0.coords t) := fun h => h0 ((hcond0_0 t).mp h)
    have hz : t.val ≠ 0 := fun hz => h0 (by rw [hz])
    by_cases h1 : t.val % 4 = 3
    · have hc1 : cond0_1 (grid0.coords t) := (hcond0_1 t).mpr h1
      rw [show (dat0 V c).leavesExact 8 t = owns (c : Thread nD τ) (ms0_8 t) fullShare ((dat0 V c).after 8 t) from by
        unfold Dat.leavesExact; rw [liveAt0_8 t hc1], after0_8]
      rw [outsAt0_C V c t h0 h1 hc0 hc1]
      unfold ptC0; dsimp only
      unfold out0_C_5 out0_C_6 out0_C_7 out0_C_8 sout0_C_0
      dsimp only [bufs0, ins0]
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c _ (bufs0 t) (ins0 V c t) hc0 hc1 _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexact HS0
      iintro ⟨H0, H1, H2, H3, H4, ⟨%e5, H5⟩, ⟨%e6, H6⟩, ⟨%e7, H7⟩, ⟨%e8, H8⟩, ⟨%es0, HS0⟩⟩
      isplitl [HS0 HR Hg]
      · isplitl [HS0 HR]
        · isplitl [HS0]; · ihave H' := (Ring.owns_of_writes_tiledL VS0_0 S1x1024.size) $$ HS0; iapply H'; ipureintro; sl_kernel_rfl
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · ihave H' := (Ring.owns_of_writes_tiledL VO0_5 S1x512x1024.size) $$ H5; iapply H'; ipureintro; sl_kernel_rfl
      isplitl [H6]; · ihave H' := (Ring.owns_of_writes_tiledL VO0_6 S1x512x1024.size) $$ H6; iapply H'; ipureintro; sl_kernel_rfl
      isplitl [H7]; · ihave H' := (Ring.owns_of_writes_tiledL VO0_7 S1x512x1024.size) $$ H7; iapply H'; ipureintro; sl_kernel_rfl
      ihave H' := (Ring.owns_of_writes_tiledL VO0_8 S1x1x1024.size) $$ H8; iapply H'; ipureintro; sl_kernel_rfl
    · have hc1 : ¬cond0_1 (grid0.coords t) := fun h => h1 ((hcond0_1 t).mp h)
      rw [Dat.leavesExact_idle (dat0 V c) 8 t (idleAt0_8 t hc1) (noFlush0_8 t hc1)]
      rw [outsAt0_B V c t h0 h1 hc0 hc1]
      unfold ptB0; dsimp only
      unfold out0_B_5 out0_B_6 out0_B_7 sout0_B_0
      dsimp only [bufs0, ins0]
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c _ (bufs0 t) (ins0 V c t) hc0 hc1 _).2.2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexact H8
      isplitl [HS0]; · iexact HS0
      iintro ⟨H0, H1, H2, H3, H4, ⟨%e5, H5⟩, ⟨%e6, H6⟩, ⟨%e7, H7⟩, H8, ⟨%es0, HS0⟩⟩
      isplitl [HS0 HR Hg]
      · isplitl [HS0 HR]
        · isplitl [HS0]; · ihave H' := (Ring.owns_of_writes_tiledL VS0_0 S1x1024.size) $$ HS0; iapply H'; ipureintro; sl_kernel_rfl
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · ihave H' := (Ring.owns_of_writes_tiledL VO0_5 S1x512x1024.size) $$ H5; iapply H'; ipureintro; sl_kernel_rfl
      isplitl [H6]; · ihave H' := (Ring.owns_of_writes_tiledL VO0_6 S1x512x1024.size) $$ H6; iapply H'; ipureintro; sl_kernel_rfl
      isplitl [H7]; · ihave H' := (Ring.owns_of_writes_tiledL VO0_7 S1x512x1024.size) $$ H7; iapply H'; ipureintro; sl_kernel_rfl
      iexists _; iexact H8

theorem body_obligation0 (c : Dev nD) : BodyObligation (dat0 (F := F) V c) (defs₀ (F := F)) Variants.none () Set.univ := fun t => by
  rw [bigSep_W0, bigSep_W0]
  exact sound_body0 V c t

theorem Phi0_in (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi0_out (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl, PhiA0_eq]
  exact PhiS0_any V c _ _

end Region0

end Cert.KernelIdeal.Hand

end
-- ==== Proof.R1Defs.lean ====
import proofs.«401480_j41566693490738_3_alg».proof.Proof.Gen.KernelIdeal.Launch
import proofs.«401480_j41566693490738_3_alg».proof.Proof.Gen.KernelIdeal.Skeleton
import proofs.«401480_j41566693490738_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel

theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x1024 .f32 := win1_5.stage (cfg1.slots t 5)
abbrev hs1_5 (t : Fin cfg1.N) : (ms1_5 t).IsWhole := hstage1_5 ((cfg1.slots t 5).cast nbuf1_5)

abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2

abbrev VO1_5 : View sig .tc .vmem S1x1024x1024 .f32 := (Memref.whole cc1_stg5_0 : Memref sig .tc .vmem S1x1024x1024 .f32).view
abbrev VS1_0 : View sig .tc .vmem S1024x1 .f32 := scM1_0.view
abbrev VS1_1 : View sig .tc .vmem S1024x1 .f32 := scM1_1.view
abbrev VS1_2 : View sig .tc .vmem S1024x1024 .f32 := scM1_2.view

end Region1

/-- The buffers one call of the second body receives, each whole. -/
structure Bufs1 where
  a3 : Memref sig .tc .vmem S1x1024x1024 .bf16
  h3 : a3.IsWhole
  a4 : Memref sig .tc .vmem S1x256x1024 .bf16
  h4 : a4.IsWhole
  a5 : Memref sig .tc .vmem S1x256x1024 .bf16
  h5 : a5.IsWhole
  a6 : Memref sig .tc .vmem S1x1024x1024 .f32
  h6 : a6.IsWhole
  a7 : Memref sig .tc .vmem S1x1x1024 .f32
  h7 : a7.IsWhole
  a8 : Memref sig .tc .vmem S1x1024x1024 .f32
  h8 : a8.IsWhole
  a9 : Memref sig .tc .vmem S1024x1 .f32
  h9 : a9.IsWhole
  a10 : Memref sig .tc .vmem S1024x1 .f32
  h10 : a10.IsWhole
  a11 : Memref sig .tc .vmem S1024x1024 .f32
  h11 : a11.IsWhole

/-- The five blocks one call of the second body reads. -/
structure Ins1 (F : FTy → Type) [FloatOps F] where
  x0 : Vec F S1x1024x1024 .bf16
  x1 : Vec F S1x256x1024 .bf16
  x2 : Vec F S1x256x1024 .bf16
  x3 : Vec F S1x1024x1024 .f32
  x4 : Vec F S1x1x1024 .f32

end Cert.KernelIdeal.Hand

end
-- ==== Proof.R1RunA.lean ====
import proofs.«401480_j41566693490738_3_alg».proof.Proof.R1Defs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_A (c : Dev nD) (i : grid1.Coords) (b : Bufs1) (x : Ins1 F) (hc0 : cond1_0 i) (hc1 : ¬cond1_1 i) :
    Σ' (LS0 : List (View.Piece (Elt F) S1024x1 .f32)) (LS1 : List (View.Piece (Elt F) S1024x1 .f32)), { LS2 : List (View.Piece (Elt F) S1024x1024 .f32) //
      ∀ (xi5 : Vec F S1x1024x1024 .f32) (E : Set ℕ) (K : PUnit → sProp 𝕄),
        iprop(owns (c : Thread nD τ) b.a3 fullShare x.x0 ∗ owns (c : Thread nD τ) b.a4 fullShare x.x1 ∗ owns (c : Thread nD τ) b.a5 fullShare x.x2 ∗ owns (c : Thread nD τ) b.a6 fullShare x.x3 ∗ owns (c : Thread nD τ) b.a7 fullShare x.x4
            ∗ owns (c : Thread nD τ) b.a8 fullShare xi5 ∗ (∃ d, owns (c : Thread nD τ) b.a9 fullShare d) ∗ (∃ d, owns (c : Thread nD τ) b.a10 fullShare d) ∗ (∃ d, owns (c : Thread nD τ) b.a11 fullShare d)
            ∗ (iprop(owns (c : Thread nD τ) b.a3 fullShare x.x0 ∗ owns (c : Thread nD τ) b.a4 fullShare x.x1 ∗ owns (c : Thread nD τ) b.a5 fullShare x.x2 ∗ owns (c : Thread nD τ) b.a6 fullShare x.x3 ∗ owns (c : Thread nD τ) b.a7 fullShare x.x4
                ∗ owns (c : Thread nD τ) b.a8 fullShare xi5 ∗ (∃ f, b.a9.view.loc (c : Thread nD τ) ↦[b.a9.view.set]{fullShare} b.a9.view.writes (Elt F) f LS0) ∗ (∃ f, b.a10.view.loc (c : Thread nD τ) ↦[b.a10.view.set]{fullShare} b.a10.view.writes (Elt F) f LS1) ∗ (∃ f, b.a11.view.loc (c : Thread nD τ) ↦[b.a11.view.set]{fullShare} b.a11.view.writes (Elt F) f LS2)) -∗ K ⟨⟩))
          ⊢ wp frame (wpE (defs₀ (F := F)) Variants.none c none) E (cc1__flash_kernel i b.a3 b.h3 b.a4 b.h4 b.a5 b.h5 b.a6 b.h6 b.a7 b.h7 b.a8 b.h8 b.a9 b.h9 b.a10 b.h10 b.a11 b.h11) K } := by
  refine ⟨?_, ?_, ?_, fun xi5 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := b.h3.eq_unread hf0; obtain rfl := b.h4.eq_unread hf1; obtain rfl := b.h5.eq_unread hf2; obtain rfl := b.h6.eq_unread hf3; obtain rfl := b.h7.eq_unread hf4
    obtain rfl := b.h8.eq_unread hf5
    sl_exec (disch := first | exact hc0 | exact hc1)
    sl_step
    iapply Hk
    isplitl [H0]
    · iexists _; isplitr; · ipureintro; exact b.h3.read_unread _
      iexact H0
    isplitl [H1]
    · iexists _; isplitr; · ipureintro; exact b.h4.read_unread _
      iexact H1
    isplitl [H2]
    · iexists _; isplitr; · ipureintro; exact b.h5.read_unread _
      iexact H2
    isplitl [H3]
    · iexists _; isplitr; · ipureintro; exact b.h6.read_unread _
      iexact H3
    isplitl [H4]
    · iexists _; isplitr; · ipureintro; exact b.h7.read_unread _
      iexact H4
    isplitl [H5]
    · iexists _; isplitr; · ipureintro; exact b.h8.read_unread _
      iexact H5
    isplitl [HS0]; · iexists _; iexact HS0
    isplitl [HS1]; · iexists _; iexact HS1
    iexists _; iexact HS2

end Cert.KernelIdeal.Hand

end
-- ==== Proof.R1RunB.lean ====
import proofs.«401480_j41566693490738_3_alg».proof.Proof.R1Defs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_B (c : Dev nD) (i : grid1.Coords) (b : Bufs1) (x : Ins1 F) (hc0 : ¬cond1_0 i) (hc1 : ¬cond1_1 i) (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi5 : Vec F S1x1024x1024 .f32) (E : Set ℕ) (K : PUnit → sProp 𝕄),
        iprop(owns (c : Thread nD τ) b.a3 fullShare x.x0 ∗ owns (c : Thread nD τ) b.a4 fullShare x.x1 ∗ owns (c : Thread nD τ) b.a5 fullShare x.x2 ∗ owns (c : Thread nD τ) b.a6 fullShare x.x3 ∗ owns (c : Thread nD τ) b.a7 fullShare x.x4
            ∗ owns (c : Thread nD τ) b.a8 fullShare xi5 ∗ owns (c : Thread nD τ) b.a9 fullShare xs0 ∗ owns (c : Thread nD τ) b.a10 fullShare xs1 ∗ owns (c : Thread nD τ) b.a11 fullShare xs2
            ∗ (iprop(owns (c : Thread nD τ) b.a3 fullShare x.x0 ∗ owns (c : Thread nD τ) b.a4 fullShare x.x1 ∗ owns (c : Thread nD τ) b.a5 fullShare x.x2 ∗ owns (c : Thread nD τ) b.a6 fullShare x.x3 ∗ owns (c : Thread nD τ) b.a7 fullShare x.x4
                ∗ owns (c : Thread nD τ) b.a8 fullShare xi5 ∗ (∃ f, b.a9.view.loc (c : Thread nD τ) ↦[b.a9.view.set]{fullShare} b.a9.view.writes (Elt F) f LS0) ∗ (∃ f, b.a10.view.loc (c : Thread nD τ) ↦[b.a10.view.set]{fullShare} b.a10.view.writes (Elt F) f LS1) ∗ (∃ f, b.a11.view.loc (c : Thread nD τ) ↦[b.a11.view.set]{fullShare} b.a11.view.writes (Elt F) f LS2)) -∗ K ⟨⟩))
          ⊢ wp frame (wpE (defs₀ (F := F)) Variants.none c none) E (cc1__flash_kernel i b.a3 b.h3 b.a4 b.h4 b.a5 b.h5 b.a6 b.h6 b.a7 b.h7 b.a8 b.h8 b.a9 b.h9 b.a10 b.h10 b.a11 b.h11) K } := by
  refine ⟨?_, ?_, ?_, fun xi5 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := b.h3.eq_unread hf0; obtain rfl := b.h4.eq_unread hf1; obtain rfl := b.h5.eq_unread hf2; obtain rfl := b.h6.eq_unread hf3; obtain rfl := b.h7.eq_unread hf4
    obtain rfl := b.h8.eq_unread hf5; obtain rfl := b.h9.eq_unread hfs0; obtain rfl := b.h10.eq_unread hfs1; obtain rfl := b.h11.eq_unread hfs2
    sl_exec (disch := first | exact hc0 | exact hc1)
    sl_step
    iapply Hk
    isplitl [H0]
    · iexists _; isplitr; · ipureintro; exact b.h3.read_unread _
      iexact H0
    isplitl [H1]
    · iexists _; isplitr; · ipureintro; exact b.h4.read_unread _
      iexact H1
    isplitl [H2]
    · iexists _; isplitr; · ipureintro; exact b.h5.read_unread _
      iexact H2
    isplitl [H3]
    · iexists _; isplitr; · ipureintro; exact b.h6.read_unread _
      iexact H3
    isplitl [H4]
    · iexists _; isplitr; · ipureintro; exact b.h7.read_unread _
      iexact H4
    isplitl [H5]
    · iexists _; isplitr; · ipureintro; exact b.h8.read_unread _
      iexact H5
    isplitl [HS0]; · iexists _; iexact HS0
    isplitl [HS1]; · iexists _; iexact HS1
    iexists _; iexact HS2

end Cert.KernelIdeal.Hand

end
-- ==== Proof.R1RunC.lean ====
import proofs.«401480_j41566693490738_3_alg».proof.Proof.R1Defs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_C (c : Dev nD) (i : grid1.Coords) (b : Bufs1) (x : Ins1 F) (hc0 : ¬cond1_0 i) (hc1 : cond1_1 i) (xs0 : Vec F S1024x1 .f32) (xs1 : Vec F S1024x1 .f32) (xs2 : Vec F S1024x1024 .f32) :
    Σ' (L5 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) b.a3 fullShare x.x0 ∗ owns (c : Thread nD τ) b.a4 fullShare x.x1 ∗ owns (c : Thread nD τ) b.a5 fullShare x.x2 ∗ owns (c : Thread nD τ) b.a6 fullShare x.x3 ∗ owns (c : Thread nD τ) b.a7 fullShare x.x4
            ∗ (∃ d, owns (c : Thread nD τ) b.a8 fullShare d) ∗ owns (c : Thread nD τ) b.a9 fullShare xs0 ∗ owns (c : Thread nD τ) b.a10 fullShare xs1 ∗ owns (c : Thread nD τ) b.a11 fullShare xs2
            ∗ (iprop(owns (c : Thread nD τ) b.a3 fullShare x.x0 ∗ owns (c : Thread nD τ) b.a4 fullShare x.x1 ∗ owns (c : Thread nD τ) b.a5 fullShare x.x2 ∗ owns (c : Thread nD τ) b.a6 fullShare x.x3 ∗ owns (c : Thread nD τ) b.a7 fullShare x.x4
                ∗ (∃ f, b.a8.view.loc (c : Thread nD τ) ↦[b.a8.view.set]{fullShare} b.a8.view.writes (Elt F) f L5) ∗ (∃ f, b.a9.view.loc (c : Thread nD τ) ↦[b.a9.view.set]{fullShare} b.a9.view.writes (Elt F) f LS0) ∗ (∃ f, b.a10.view.loc (c : Thread nD τ) ↦[b.a10.view.set]{fullShare} b.a10.view.writes (Elt F) f LS1) ∗ (∃ f, b.a11.view.loc (c : Thread nD τ) ↦[b.a11.view.set]{fullShare} b.a11.view.writes (Elt F) f LS2)) -∗ K ⟨⟩))
          ⊢ wp frame (wpE (defs₀ (F := F)) Variants.none c none) E (cc1__flash_kernel i b.a3 b.h3 b.a4 b.h4 b.a5 b.h5 b.a6 b.h6 b.a7 b.h7 b.a8 b.h8 b.a9 b.h9 b.a10 b.h10 b.a11 b.h11) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := b.h3.eq_unread hf0; obtain rfl := b.h4.eq_unread hf1; obtain rfl := b.h5.eq_unread hf2; obtain rfl := b.h6.eq_unread hf3; obtain rfl := b.h7.eq_unread hf4
    obtain rfl := b.h9.eq_unread hfs0; obtain rfl := b.h10.eq_unread hfs1; obtain rfl := b.h11.eq_unread hfs2
    sl_exec (disch := first | exact hc0 | exact hc1)
    sl_step
    iapply Hk
    isplitl [H0]
    · iexists _; isplitr; · ipureintro; exact b.h3.read_unread _
      iexact H0
    isplitl [H1]
    · iexists _; isplitr; · ipureintro; exact b.h4.read_unread _
      iexact H1
    isplitl [H2]
    · iexists _; isplitr; · ipureintro; exact b.h5.read_unread _
      iexact H2
    isplitl [H3]
    · iexists _; isplitr; · ipureintro; exact b.h6.read_unread _
      iexact H3
    isplitl [H4]
    · iexists _; isplitr; · ipureintro; exact b.h7.read_unread _
      iexact H4
    isplitl [H5]; · iexists _; iexact H5
    isplitl [HS0]; · iexists _; iexact HS0
    isplitl [HS1]; · iexists _; iexact HS1
    iexists _; iexact HS2

end Cert.KernelIdeal.Hand

end
-- ==== Proof.R1Outs.lean ====
import proofs.«401480_j41566693490738_3_alg».proof.Proof.R1RunA
import proofs.«401480_j41566693490738_3_alg».proof.Proof.R1RunB
import proofs.«401480_j41566693490738_3_alg».proof.Proof.R1RunC

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid1.Coords) (b : Bufs1) (x : Ins1 F)

section A
variable (hc0 : cond1_0 i) (hc1 : ¬cond1_1 i)
def sout1_A_0 : Vec F S1024x1 .f32 := VS1_0.read (Elt F) (VS1_0.writes (Elt F) VS1_0.junk (kernelRun1_A c i b x hc0 hc1).1)
theorem sout1_A_0_cover : ∀ y : S1024x1.Idx, ∃ pc ∈ (kernelRun1_A c i b x hc0 hc1).1, y ∈ pc.1.set := View.cover_of_tiledL _ S1024x1.size (by sl_kernel_rfl)
def sout1_A_1 : Vec F S1024x1 .f32 := VS1_1.read (Elt F) (VS1_1.writes (Elt F) VS1_1.junk (kernelRun1_A c i b x hc0 hc1).2.1)
theorem sout1_A_1_cover : ∀ y : S1024x1.Idx, ∃ pc ∈ (kernelRun1_A c i b x hc0 hc1).2.1, y ∈ pc.1.set := View.cover_of_tiledL _ S1024x1.size (by sl_kernel_rfl)
def sout1_A_2 : Vec F S1024x1024 .f32 := VS1_2.read (Elt F) (VS1_2.writes (Elt F) VS1_2.junk (kernelRun1_A c i b x hc0 hc1).2.2.1)
theorem sout1_A_2_cover : ∀ y : S1024x1024.Idx, ∃ pc ∈ (kernelRun1_A c i b x hc0 hc1).2.2.1, y ∈ pc.1.set := View.cover_of_tiledL _ S1024x1024.size (by sl_kernel_rfl)
end A

section B
variable (hc0 : ¬cond1_0 i) (hc1 : ¬cond1_1 i) (xs0 xs1 : Vec F S1024x1 .f32) (xs2 : Vec F S1024x1024 .f32)
def sout1_B_0 : Vec F S1024x1 .f32 := VS1_0.read (Elt F) (VS1_0.writes (Elt F) VS1_0.junk (kernelRun1_B c i b x hc0 hc1 xs0 xs1 xs2).1)
theorem sout1_B_0_cover : ∀ y : S1024x1.Idx, ∃ pc ∈ (kernelRun1_B c i b x hc0 hc1 xs0 xs1 xs2).1, y ∈ pc.1.set := View.cover_of_tiledL _ S1024x1.size (by sl_kernel_rfl)
def sout1_B_1 : Vec F S1024x1 .f32 := VS1_1.read (Elt F) (VS1_1.writes (Elt F) VS1_1.junk (kernelRun1_B c i b x hc0 hc1 xs0 xs1 xs2).2.1)
theorem sout1_B_1_cover : ∀ y : S1024x1.Idx, ∃ pc ∈ (kernelRun1_B c i b x hc0 hc1 xs0 xs1 xs2).2.1, y ∈ pc.1.set := View.cover_of_tiledL _ S1024x1.size (by sl_kernel_rfl)
def sout1_B_2 : Vec F S1024x1024 .f32 := VS1_2.read (Elt F) (VS1_2.writes (Elt F) VS1_2.junk (kernelRun1_B c i b x hc0 hc1 xs0 xs1 xs2).2.2.1)
theorem sout1_B_2_cover : ∀ y : S1024x1024.Idx, ∃ pc ∈ (kernelRun1_B c i b x hc0 hc1 xs0 xs1 xs2).2.2.1, y ∈ pc.1.set := View.cover_of_tiledL _ S1024x1024.size (by sl_kernel_rfl)
end B

section C
variable (hc0 : ¬cond1_0 i) (hc1 : cond1_1 i) (xs0 xs1 : Vec F S1024x1 .f32) (xs2 : Vec F S1024x1024 .f32)
def out1_C_5 : Vec F S1x1024x1024 .f32 := VO1_5.read (Elt F) (VO1_5.writes (Elt F) VO1_5.junk (kernelRun1_C c i b x hc0 hc1 xs0 xs1 xs2).1)
theorem out1_C_5_cover : ∀ y : S1x1024x1024.Idx, ∃ pc ∈ (kernelRun1_C c i b x hc0 hc1 xs0 xs1 xs2).1, y ∈ pc.1.set := View.cover_of_tiledL _ S1x1024x1024.size (by sl_kernel_rfl)
def sout1_C_0 : Vec F S1024x1 .f32 := VS1_0.read (Elt F) (VS1_0.writes (Elt F) VS1_0.junk (kernelRun1_C c i b x hc0 hc1 xs0 xs1 xs2).2.1)
theorem sout1_C_0_cover : ∀ y : S1024x1.Idx, ∃ pc ∈ (kernelRun1_C c i b x hc0 hc1 xs0 xs1 xs2).2.1, y ∈ pc.1.set := View.cover_of_tiledL _ S1024x1.size (by sl_kernel_rfl)
def sout1_C_1 : Vec F S1024x1 .f32 := VS1_1.read (Elt F) (VS1_1.writes (Elt F) VS1_1.junk (kernelRun1_C c i b x hc0 hc1 xs0 xs1 xs2).2.2.1)
theorem sout1_C_1_cover : ∀ y : S1024x1.Idx, ∃ pc ∈ (kernelRun1_C c i b x hc0 hc1 xs0 xs1 xs2).2.2.1, y ∈ pc.1.set := View.cover_of_tiledL _ S1024x1.size (by sl_kernel_rfl)
def sout1_C_2 : Vec F S1024x1024 .f32 := VS1_2.read (Elt F) (VS1_2.writes (Elt F) VS1_2.junk (kernelRun1_C c i b x hc0 hc1 xs0 xs1 xs2).2.2.2.1)
theorem sout1_C_2_cover : ∀ y : S1024x1024.Idx, ∃ pc ∈ (kernelRun1_C c i b x hc0 hc1 xs0 xs1 xs2).2.2.2.1, y ∈ pc.1.set := View.cover_of_tiledL _ S1024x1024.size (by sl_kernel_rfl)
end C

end Cert.KernelIdeal.Hand

end
-- ==== Proof.R1Body.lean ====
import proofs.«401480_j41566693490738_3_alg».proof.Proof.R1Outs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

structure Outs1 (F : FTy → Type) [FloatOps F] where
  o : Vec F S1x1024x1024 .f32
  m : Vec F S1024x1 .f32
  l : Vec F S1024x1 .f32
  acc : Vec F S1024x1024 .f32

section Region1

variable (V : (c : Dev nD) → (b : Ref sig .tc) → Buf (Elt F) ((c : Thread nD τ).loc b))

/-- The call at grid point `t`: its buffers and its blocks. -/
abbrev bufs1 (t : Fin cfg1.N) : Bufs1 := ⟨ms1_0 t, hs1_0 t, ms1_1 t, hs1_1 t, ms1_2 t, hs1_2 t, ms1_3 t, hs1_3 t, ms1_4 t, hs1_4 t, ms1_5 t, hs1_5 t, scM1_0, Memref.isWhole_whole _, scM1_1, Memref.isWhole_whole _, scM1_2, Memref.isWhole_whole _⟩
abbrev ins1 (c : Dev nD) (t : Fin cfg1.N) : Ins1 F := ⟨iblk1 V c 0 t, iblk1 V c 1 t, iblk1 V c 2 t, iblk1 V c 3 t, iblk1 V c 4 t⟩

def ptA1 (c : Dev nD) (t : Fin cfg1.N) (hc0 : cond1_0 (grid1.coords t)) (hc1 : ¬cond1_1 (grid1.coords t)) : Outs1 F where
  o := VO1_5.read (Elt F) VO1_5.junk
  m := sout1_A_0 c _ (bufs1 t) (ins1 V c t) hc0 hc1
  l := sout1_A_1 c _ (bufs1 t) (ins1 V c t) hc0 hc1
  acc := sout1_A_2 c _ (bufs1 t) (ins1 V c t) hc0 hc1

def ptB1 (c : Dev nD) (t : Fin cfg1.N) (hc0 : ¬cond1_0 (grid1.coords t)) (hc1 : ¬cond1_1 (grid1.coords t)) (xs0 : Vec F S1024x1 .f32) (xs1 : Vec F S1024x1 .f32) (xs2 : Vec F S1024x1024 .f32) : Outs1 F where
  o := VO1_5.read (Elt F) VO1_5.junk
  m := sout1_B_0 c _ (bufs1 t) (ins1 V c t) hc0 hc1 xs0 xs1 xs2
  l := sout1_B_1 c _ (bufs1 t) (ins1 V c t) hc0 hc1 xs0 xs1 xs2
  acc := sout1_B_2 c _ (bufs1 t) (ins1 V c t) hc0 hc1 xs0 xs1 xs2

def ptC1 (c : Dev nD) (t : Fin cfg1.N) (hc0 : ¬cond1_0 (grid1.coords t)) (hc1 : cond1_1 (grid1.coords t)) (xs0 : Vec F S1024x1 .f32) (xs1 : Vec F S1024x1 .f32) (xs2 : Vec F S1024x1024 .f32) : Outs1 F where
  o := out1_C_5 c _ (bufs1 t) (ins1 V c t) hc0 hc1 xs0 xs1 xs2
  m := sout1_C_0 c _ (bufs1 t) (ins1 V c t) hc0 hc1 xs0 xs1 xs2
  l := sout1_C_1 c _ (bufs1 t) (ins1 V c t) hc0 hc1 xs0 xs1 xs2
  acc := sout1_C_2 c _ (bufs1 t) (ins1 V c t) hc0 hc1 xs0 xs1 xs2

def outsAt1 (c : Dev nD) : (n : ℕ) → n < cfg1.N → Outs1 F
  | 0, hn => ptA1 V c ⟨0, hn⟩ ((hcond1_0 ⟨0, hn⟩).mpr (Nat.zero_mod _)) (fun h => by have h3 := (hcond1_1 ⟨0, hn⟩).mp h; (try dsimp only at h3); omega)
  | n + 1, hn =>
    if h0 : (n + 1) % 8 = 0 then
      ptA1 V c ⟨n + 1, hn⟩ ((hcond1_0 ⟨n + 1, hn⟩).mpr h0) (fun h => by have h3 := (hcond1_1 ⟨n + 1, hn⟩).mp h; (try dsimp only at h3); omega)
    else if h1 : (n + 1) % 8 = 7 then
      ptC1 V c ⟨n + 1, hn⟩ (fun h => h0 ((hcond1_0 ⟨n + 1, hn⟩).mp h)) ((hcond1_1 ⟨n + 1, hn⟩).mpr h1) (outsAt1 c n (Nat.lt_of_succ_lt hn)).m (outsAt1 c n (Nat.lt_of_succ_lt hn)).l (outsAt1 c n (Nat.lt_of_succ_lt hn)).acc
    else
      ptB1 V c ⟨n + 1, hn⟩ (fun h => h0 ((hcond1_0 ⟨n + 1, hn⟩).mp h)) (fun h => h1 ((hcond1_1 ⟨n + 1, hn⟩).mp h)) (outsAt1 c n (Nat.lt_of_succ_lt hn)).m (outsAt1 c n (Nat.lt_of_succ_lt hn)).l (outsAt1 c n (Nat.lt_of_succ_lt hn)).acc

theorem outsAt1_A (c : Dev nD) (t : Fin cfg1.N) (h0 : t.val % 8 = 0) (hc0 : cond1_0 (grid1.coords t)) (hc1 : ¬cond1_1 (grid1.coords t)) :
    outsAt1 V c t.val t.isLt = ptA1 V c t hc0 hc1 := by
  obtain ⟨n, hn⟩ := t
  cases n with
  | zero => rfl
  | succ n => exact (dif_pos h0).trans rfl

theorem outsAt1_B (c : Dev nD) (t : Fin cfg1.N) (h0 : ¬t.val % 8 = 0) (h1 : ¬t.val % 8 = 7) (hc0 : ¬cond1_0 (grid1.coords t)) (hc1 : ¬cond1_1 (grid1.coords t)) :
    outsAt1 V c t.val t.isLt = ptB1 V c t hc0 hc1 (outsAt1 V c (t.val - 1) (Nat.lt_of_le_of_lt (Nat.sub_le _ _) t.isLt)).m (outsAt1 V c (t.val - 1) (Nat.lt_of_le_of_lt (Nat.sub_le _ _) t.isLt)).l (outsAt1 V c (t.val - 1) (Nat.lt_of_le_of_lt (Nat.sub_le _ _) t.isLt)).acc := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) (hc0 : ¬cond1_0 (grid1.coords t)) (hc1 : cond1_1 (grid1.coords t)) :
    outsAt1 V c t.val t.isLt = ptC1 V c t hc0 hc1 (outsAt1 V c (t.val - 1) (Nat.lt_of_le_of_lt (Nat.sub_le _ _) t.isLt)).m (outsAt1 V c (t.val - 1) (Nat.lt_of_le_of_lt (Nat.sub_le _ _) t.isLt)).l (outsAt1 V c (t.val - 1) (Nat.lt_of_le_of_lt (Nat.sub_le _ _) t.isLt)).acc := by
  obtain ⟨n, hn⟩ := t
  cases n with
  | zero => exact absurd (Nat.zero_mod _) h0
  | succ n => exact (dif_neg h0).trans ((dif_pos h1).trans rfl)

def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_scratch0), ((c : Thread nD τ).loc cc0_scratch0) ↦{fullShare} f))

theorem rest1_in (c : Dev nD) (T : sProp 𝕄) :
    iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_scratch0), ((c : Thread nD τ).loc cc0_scratch0) ↦{fullShare} f) ∗ T) ⊢ iprop(Rest1 (F := F) c ∗ T) := by
  unfold Rest1
  iintro ⟨R1, R2, R3, R4, R5, R6, R7, R8, R9, R10, R11, R12, R13, R14, R15, HT⟩
  isplitl [R1 R2 R3 R4 R5 R6 R7 R8 R9 R10 R11 R12 R13 R14 R15]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  iexact HT

theorem rest1_out (c : Dev nD) (T : sProp 𝕄) :
    iprop(Rest1 (F := F) c ∗ T) ⊢ iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_scratch0), ((c : Thread nD τ).loc cc0_scratch0) ↦{fullShare} f) ∗ T) := by
  unfold Rest1
  iintro ⟨⟨R1, R2, R3, R4, R5, R6, R7, R8, R9, R10, R11, R12, R13, R14, R15⟩, HT⟩
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  iexact HT

theorem rest1_assoc (c : Dev nD) (T : sProp 𝕄) :
    iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_scratch0), ((c : Thread nD τ).loc cc0_scratch0) ↦{fullShare} f) ∗ T) = iprop(Rest1 (F := F) c ∗ T) :=
  BI.equiv_iff.mp ⟨rest1_in c T, rest1_out c T⟩

theorem PhiA1_eq (c : Dev nD) :
    (Pipeline.ΦA spec1 c : sProp 𝕄)
      = iprop(iprop(Rest1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]
  rw [rest1_assoc]; rfl

def PhiS1 (c : Dev nD) : (n : ℕ) → n ≤ cfg1.N → sProp 𝕄
  | 0, _ => Pipeline.ΦA spec1 c
  | n + 1, hn => iprop(iprop(Rest1 c ∗ owns (c : Thread nD τ) scM1_0 fullShare ((outsAt1 V c n hn).m) ∗ owns (c : Thread nD τ) scM1_1 fullShare ((outsAt1 V c n hn).l) ∗ owns (c : Thread nD τ) scM1_2 fullShare ((outsAt1 V c n hn).acc)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(Rest1 c ∗ owns (c : Thread nD τ) scM1_0 fullShare ((outsAt1 V c n hn).m) ∗ owns (c : Thread nD τ) scM1_1 fullShare ((outsAt1 V c n hn).l) ∗ owns (c : Thread nD τ) scM1_2 fullShare ((outsAt1 V c n hn).acc)) ∗ (∃ r, prngReg c r)) := rfl

theorem PhiS1_pos (c : Dev nD) (n : ℕ) (h : n ≤ cfg1.N) (hz : n ≠ 0) :
    PhiS1 V c n h = iprop(iprop(Rest1 c ∗ owns (c : Thread nD τ) scM1_0 fullShare ((outsAt1 V c (n - 1) (by omega)).m) ∗ owns (c : Thread nD τ) scM1_1 fullShare ((outsAt1 V c (n - 1) (by omega)).l) ∗ owns (c : Thread nD τ) scM1_2 fullShare ((outsAt1 V c (n - 1) (by omega)).acc)) ∗ (∃ r, prngReg c r)) := by
  cases n with
  | zero => exact absurd rfl hz
  | succ n => rfl

theorem PhiS1_any (c : Dev nD) (n : ℕ) (h : n ≤ cfg1.N) :
    PhiS1 V c n h ⊢ iprop(iprop(Rest1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  cases n with
  | zero => rw [PhiS1_zero V c 0 h rfl, PhiA1_eq]
  | succ n =>
    rw [PhiS1_succ]
    iintro ⟨⟨HR, HS0, HS1, HS2⟩, Hg⟩
    isplitl [HR HS0 HS1 HS2]
    · isplitl [HR]; · iexact HR
      isplitl [HS0]; · iexists _; iexact HS0
      isplitl [HS1]; · iexists _; iexact HS1
      iexists _; iexact HS2
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).o
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).o := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 8000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 8 = 0
  · have hc0 : cond1_0 (grid1.coords t) := (hcond1_0 t).mpr h0
    have hc1 : ¬cond1_1 (grid1.coords t) := fun h => by have h3 := (hcond1_1 t).mp h; omega
    rw [Dat.leavesExact_idle (dat1 V c) 5 t (idleAt1_5 t hc1) (noFlush1_5 t hc1)]
    rw [outsAt1_A V c t h0 hc0 hc1]
    unfold ptA1; dsimp only
    unfold sout1_A_0 sout1_A_1 sout1_A_2
    dsimp only [bufs1, ins1]
    rw [PhiS1_castSucc V c t]
    iintro ⟨HΦ, Ho, ⟨%d0, H0⟩, ⟨%d1, H1⟩, ⟨%d2, H2⟩, ⟨%d3, H3⟩, ⟨%d4, H4⟩, ⟨%d5, H5⟩⟩
    ihave HΦ' := (PhiS1_any V c _ _) $$ HΦ
    icases HΦ' with ⟨⟨HR, HS0, HS1, HS2⟩, Hg⟩
    iapply ((kernelRun1_A c _ (bufs1 t) (ins1 V c t) hc0 hc1).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, ⟨%es0, HS0⟩, ⟨%es1, HS1⟩, ⟨%es2, HS2⟩⟩
    isplitl [HR HS0 HS1 HS2 Hg]
    · isplitl [HR HS0 HS1 HS2]
      · isplitl [HR]; · iexact HR
        isplitl [HS0]; · ihave H' := (Ring.owns_of_writes_tiledL VS1_0 S1024x1.size) $$ HS0; iapply H'; ipureintro; sl_kernel_rfl
        isplitl [HS1]; · ihave H' := (Ring.owns_of_writes_tiledL VS1_1 S1024x1.size) $$ HS1; iapply H'; ipureintro; sl_kernel_rfl
        ihave H' := (Ring.owns_of_writes_tiledL VS1_2 S1024x1024.size) $$ HS2; iapply H'; ipureintro; sl_kernel_rfl
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hc0 : ¬cond1_0 (grid1.coords t) := fun h => h0 ((hcond1_0 t).mp h)
    have hz : t.val ≠ 0 := fun hz => h0 (by rw [hz])
    by_cases h1 : t.val % 8 = 7
    · have hc1 : cond1_1 (grid1.coords t) := (hcond1_1 t).mpr h1
      rw [show (dat1 V c).leavesExact 5 t = owns (c : Thread nD τ) (ms1_5 t) fullShare ((dat1 V c).after 5 t) from by
        unfold Dat.leavesExact; rw [liveAt1_5 t hc1], after1_5]
      rw [outsAt1_C V c t h0 h1 hc0 hc1]
      unfold ptC1; dsimp only
      unfold out1_C_5 sout1_C_0 sout1_C_1 sout1_C_2
      dsimp only [bufs1, ins1]
      rw [PhiS1_castSucc V c t, PhiS1_pos V c _ _ hz]
      iintro ⟨⟨⟨HR, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_C c _ (bufs1 t) (ins1 V c t) hc0 hc1 _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [HR HS0 HS1 HS2 Hg]
      · isplitl [HR HS0 HS1 HS2]
        · isplitl [HR]; · iexact HR
          isplitl [HS0]; · ihave H' := (Ring.owns_of_writes_tiledL VS1_0 S1024x1.size) $$ HS0; iapply H'; ipureintro; sl_kernel_rfl
          isplitl [HS1]; · ihave H' := (Ring.owns_of_writes_tiledL VS1_1 S1024x1.size) $$ HS1; iapply H'; ipureintro; sl_kernel_rfl
          ihave H' := (Ring.owns_of_writes_tiledL VS1_2 S1024x1024.size) $$ HS2; iapply H'; ipureintro; sl_kernel_rfl
        iexact Hg
      isplitl [Ho]; · iexact Ho
      isplitl [H0]; · iexact H0
      isplitl [H1]; · iexact H1
      isplitl [H2]; · iexact H2
      isplitl [H3]; · iexact H3
      isplitl [H4]; · iexact H4
      ihave H' := (Ring.owns_of_writes_tiledL VO1_5 S1x1024x1024.size) $$ H5; iapply H'; ipureintro; sl_kernel_rfl
    · have hc1 : ¬cond1_1 (grid1.coords t) := fun h => h1 ((hcond1_1 t).mp h)
      rw [Dat.leavesExact_idle (dat1 V c) 5 t (idleAt1_5 t hc1) (noFlush1_5 t hc1)]
      rw [outsAt1_B V c t h0 h1 hc0 hc1]
      unfold ptB1; dsimp only
      unfold sout1_B_0 sout1_B_1 sout1_B_2
      dsimp only [bufs1, ins1]
      rw [PhiS1_castSucc V c t, PhiS1_pos V c _ _ hz]
      iintro ⟨⟨⟨HR, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_B c _ (bufs1 t) (ins1 V c t) hc0 hc1 _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HR HS0 HS1 HS2 Hg]
      · isplitl [HR HS0 HS1 HS2]
        · isplitl [HR]; · iexact HR
          isplitl [HS0]; · ihave H' := (Ring.owns_of_writes_tiledL VS1_0 S1024x1.size) $$ HS0; iapply H'; ipureintro; sl_kernel_rfl
          isplitl [HS1]; · ihave H' := (Ring.owns_of_writes_tiledL VS1_1 S1024x1.size) $$ HS1; iapply H'; ipureintro; sl_kernel_rfl
          ihave H' := (Ring.owns_of_writes_tiledL VS1_2 S1024x1024.size) $$ HS2; iapply H'; ipureintro; sl_kernel_rfl
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

theorem Phi1_in (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi1_out (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_any V c _ _

end Region1

end Cert.KernelIdeal.Hand

end
-- ==== Proof.Whole.lean ====
import proofs.«401480_j41566693490738_3_alg».proof.Proof.R0Body
import proofs.«401480_j41566693490738_3_alg».proof.Proof.R1Body

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The two casts write their own results only. -/
theorem W1_of_ne (c : Dev nD) (b : Ref sig .tc) (h0 : b ≠ main_v0) (h1 : b ≠ main_v1) :
    W1 m c (Proc.devRef .tc b) = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (V2 m) c).arrAt_in w hw _).trans (A_eq1 (V2 m) c w))

theorem W3_main_arg0 (c : Dev nD) : W3 m c (Proc.devRef .tc main_arg0) = m ((c : Thread nD τ).loc main_arg0) :=
  (W3_in m c 3 rfl).trans ((W2_in m c 0 rfl).trans (W1_of_ne m c main_arg0 (by decide) (by decide)))
theorem W3_main_arg1 (c : Dev nD) : W3 m c (Proc.devRef .tc main_arg1) = m ((c : Thread nD τ).loc main_arg1) :=
  (W3_of_ne m c main_arg1 (by decide)).trans ((W2_of_ne m c main_arg1 (by decide)).trans (W1_of_ne m c main_arg1 (by decide) (by decide)))
theorem W3_main_arg2 (c : Dev nD) : W3 m c (Proc.devRef .tc main_arg2) = m ((c : Thread nD τ).loc main_arg2) :=
  (W3_of_ne m c main_arg2 (by decide)).trans ((W2_in m c 2 rfl).trans (W1_of_ne m c main_arg2 (by decide) (by decide)))
theorem W3_main_arg3 (c : Dev nD) : W3 m c (Proc.devRef .tc main_arg3) = m ((c : Thread nD τ).loc main_arg3) :=
  (W3_of_ne m c main_arg3 (by decide)).trans ((W2_of_ne m c main_arg3 (by decide)).trans (W1_of_ne m c main_arg3 (by decide) (by decide)))
theorem W3_main_arg4 (c : Dev nD) : W3 m c (Proc.devRef .tc main_arg4) = m ((c : Thread nD τ).loc main_arg4) :=
  (W3_of_ne m c main_arg4 (by decide)).trans ((W2_in m c 4 rfl).trans (W1_of_ne m c main_arg4 (by decide) (by decide)))

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 0).pre c (fun _ => fullShare) (adm (F := F) 0).1 ∗ Pipeline.scopedRest (Pipeline.pin (pcfgs (F := F)) adm 0).spec c)
        ⊢ (Pipeline.ΦA spec0 c : sProp 𝕄) := by
      unfold Pipeline.ΦA
      iintro ⟨Hp, -, Hr⟩
      isplitl [Hr]; · iexact Hr
      iexact Hp
    exact h1.trans (Phi0_in (V1 m) c)
  hout c := by
    rw [Pipeline.ownSems0_none]
    have h1 : (Pipeline.ΦA spec0 c : sProp 𝕄)
        ⊢ iprop((∃ r, prngReg c r) ∗ BI.emp ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (Phi0_out (V1 m) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (adm (F := F) 1).1 ∗ Pipeline.scopedRest (Pipeline.pin (pcfgs (F := F)) adm 1).spec c)
        ⊢ (Pipeline.ΦA spec1 c : sProp 𝕄) := by
      unfold Pipeline.ΦA
      iintro ⟨Hp, -, Hr⟩
      isplitl [Hr]; · iexact Hr
      iexact Hp
    exact h1.trans (Phi1_in (V2 m) c)
  hout c := by
    rw [Pipeline.ownSems0_none]
    have h1 : (Pipeline.ΦA spec1 c : sProp 𝕄)
        ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (Phi1_out (V2 m) c).trans h1
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh' (W0 m)),
    .region (reg0 m),
    .region (reg1 m) ]
theorem main_run (c : Dev nD) : main (F := F) c = Pipeline.Seg.run (segs m) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

theorem run_result : θ_run defs (onTc (τ := τ) (main (F := F))) ⟨m, fun _ => 0, ρ⟩ (fun r => ∀ c : Dev nD,
      r.2.mem ((c.tc : Thread nD τ).loc main_v3) = (dat1 (V2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v3 (by decide))).trans (W3_arr m c 5),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.KernelIdeal.Hand

end
-- ==== Proof.Spec.lean ====
import Mathlib.Algebra.BigOperators.Fin
import Mathlib.Algebra.BigOperators.Group.Finset.Basic
import Mathlib.Data.EReal.Operations
import Idealize.ShloMosaic.PureOps.Ideal
import Idealize.ShloMosaic.Lib.ValueIdx

noncomputable section

open scoped BigOperators
open Finset

namespace Cert.Spec

open Idealize.ShloMosaic Idealize.ShloMosaic.ValueIdx

abbrev SX : Shape := ⟨3, ![4, 2048, 1024]⟩
abbrev SW : Shape := ⟨2, ![1024, 1024]⟩
abbrev SB : Shape := ⟨1, ![1024]⟩

def tileAt (f : Fin 2048 → EReal) (v : ℕ) (j : Fin 256) : EReal :=
  if h : 256 * v + j.val < 2048 then f ⟨256 * v + j.val, h⟩ else 0

def blkAt (f : Fin 2048 → EReal) (v : ℕ) (r : Fin 512) : EReal :=
  if h : 512 * v + r.val < 2048 then f ⟨512 * v + r.val, h⟩ else 0

def stats (sc xv : Fin 2048 → EReal) : ℕ → EReal × EReal × EReal
  | 0 => (⊥, 0, 0)
  | v + 1 =>
    (max (stats sc xv v).1 (univ.fold max ⊥ (tileAt sc v)),
      Ideal.exp ((stats sc xv v).1 - max (stats sc xv v).1 (univ.fold max ⊥ (tileAt sc v))) * (stats sc xv v).2.1
        + ∑ j : Fin 256, Ideal.exp (tileAt sc v j - max (stats sc xv v).1 (univ.fold max ⊥ (tileAt sc v))),
      Ideal.exp ((stats sc xv v).1 - max (stats sc xv v).1 (univ.fold max ⊥ (tileAt sc v))) * (stats sc xv v).2.2
        + ∑ j : Fin 256, Ideal.exp (tileAt sc v j - max (stats sc xv v).1 (univ.fold max ⊥ (tileAt sc v))) * tileAt xv v j)

theorem stats_zero (sc xv : Fin 2048 → EReal) : stats sc xv 0 = (⊥, 0, 0) := rfl

theorem stats_succ (sc xv : Fin 2048 → EReal) (v : ℕ) :
    stats sc xv (v + 1) =
      (max (stats sc xv v).1 (univ.fold max ⊥ (tileAt sc v)),
        Ideal.exp ((stats sc xv v).1 - max (stats sc xv v).1 (univ.fold max ⊥ (tileAt sc v))) * (stats sc xv v).2.1
          + ∑ j : Fin 256, Ideal.exp (tileAt sc v j - max (stats sc xv v).1 (univ.fold max ⊥ (tileAt sc v))),
        Ideal.exp ((stats sc xv v).1 - max (stats sc xv v).1 (univ.fold max ⊥ (tileAt sc v))) * (stats sc xv v).2.2
          + ∑ j : Fin 256, Ideal.exp (tileAt sc v j - max (stats sc xv v).1 (univ.fold max ⊥ (tileAt sc v))) * tileAt xv v j) := rfl

def colSum (xv : Fin 2048 → EReal) : ℕ → EReal
  | 0 => 0
  | v + 1 => colSum xv v + ∑ r : Fin 512, blkAt xv v r

theorem colSum_zero (xv : Fin 2048 → EReal) : colSum xv 0 = 0 := rfl
theorem colSum_succ (xv : Fin 2048 → EReal) (v : ℕ) : colSum xv (v + 1) = colSum xv v + ∑ r : Fin 512, blkAt xv v r := rfl

def meanOf (xv : Fin 2048 → EReal) : EReal := colSum xv 4 * (((1 / 2048 : ℝ) : ℝ) : EReal)

def kerRow (sc xv : Fin 2048 → EReal) (xs meanv : EReal) : EReal :=
  (1 * xs + Ideal.div (stats sc xv 8).2.2 (stats sc xv 8).2.1) - 2 * meanv

def eye (s t : Fin 2048) : EReal := if s = t then 1 else 0

def rowMax (sc : Fin 2048 → EReal) : EReal := max ⊥ (univ.fold max ⊥ sc)

def soft (sc : Fin 2048 → EReal) (t : Fin 2048) : EReal :=
  Ideal.div (Ideal.exp (sc t - rowMax sc)) (∑ t' : Fin 2048, Ideal.exp (sc t' - rowMax sc))

def blend (sc : Fin 2048 → EReal) (s t : Fin 2048) : EReal := 1 * eye s t + soft sc t

def refRow (sc xv : Fin 2048 → EReal) (s : Fin 2048) : EReal :=
  ∑ t : Fin 2048, (blend sc s t - 1 * Ideal.div (∑ t' : Fin 2048, blend sc s t') (((2048 : ℝ) : ℝ) : EReal)) * xv t

section Arrays

variable (x : SX.Idx → EReal) (wq : SW.Idx → EReal) (bq : SB.Idx → EReal) (wk : SW.Idx → EReal) (bk : SB.Idx → EReal)

def proj (w : SW.Idx → EReal) (bias : SB.Idx → EReal) (b : Fin 4) (s : Fin 2048) (e : Fin 1024) : EReal :=
  (∑ d : Fin 1024, x (ix3 b s d) * w (ix2 e d)) + bias (ix1 e)

def rawScore (b : Fin 4) (s t : Fin 2048) : EReal :=
  ∑ e : Fin 1024, proj x wq bq b s e * proj x wk bk b t e

def kerScore (b : Fin 4) (s t : Fin 2048) : EReal := rawScore x wq bq wk bk b s t * (((1 / 32 : ℝ) : ℝ) : EReal)
def refScore (b : Fin 4) (s t : Fin 2048) : EReal := Ideal.div (rawScore x wq bq wk bk b s t) (((32 : ℝ) : ℝ) : EReal)

def kerOut (b : Fin 4) (s : Fin 2048) (d : Fin 1024) : EReal :=
  kerRow (fun t => kerScore x wq bq wk bk b s t) (fun t => x (ix3 b t d)) (x (ix3 b s d)) (meanOf (fun t => x (ix3 b t d)))

def refOut (b : Fin 4) (s : Fin 2048) (d : Fin 1024) : EReal :=
  refRow (fun t => refScore x wq bq wk bk b s t) (fun t => x (ix3 b t d)) s

end Arrays

theorem ofBits_zero : Ideal.ofBits .f32 0x00000000#32 = 0 := by simp [Ideal.ofBits, Ideal.ieee]
theorem ofBits_one : Ideal.ofBits .f32 0x3F800000#32 = 1 := by simp [Ideal.ofBits, Ideal.ieee, -EReal.coe_mul]; norm_num
theorem ofBits_two : Ideal.ofBits .f32 0x40000000#32 = 2 := by
  have h : Ideal.ofBits .f32 0x40000000#32 = (((2 : ℝ) : ℝ) : EReal) := by simp [Ideal.ofBits, Ideal.ieee, -EReal.coe_mul]; norm_num
  rw [h]; norm_cast
theorem ofBits_32 : Ideal.ofBits .f32 0x42000000#32 = (((32 : ℝ) : ℝ) : EReal) := by simp [Ideal.ofBits, Ideal.ieee, -EReal.coe_mul]; norm_num
theorem ofBits_2048 : Ideal.ofBits .f32 0x45000000#32 = (((2048 : ℝ) : ℝ) : EReal) := by simp [Ideal.ofBits, Ideal.ieee, -EReal.coe_mul]; norm_num
theorem ofBits_inv32 : Ideal.ofBits .f32 0x3D000000#32 = (((1 / 32 : ℝ) : ℝ) : EReal) := by simp [Ideal.ofBits, Ideal.ieee, -EReal.coe_mul]; norm_num
theorem ofBits_inv2048 : Ideal.ofBits .f32 0x3A000000#32 = (((1 / 2048 : ℝ) : ℝ) : EReal) := by simp [Ideal.ofBits, Ideal.ieee, -EReal.coe_mul]; norm_num
theorem ofBits_neg_inf : Ideal.ofBits .f32 0xFF800000#32 = ⊥ := by simp [Ideal.ofBits, Ideal.ieee]

end Cert.Spec

end
-- ==== Proof.R0Value.lean ====
import proofs.«401480_j41566693490738_3_alg».proof.Proof.R0Body
import proofs.«401480_j41566693490738_3_alg».proof.Proof.Spec
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

namespace R0Value

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

theorem pieceA5 (c : Dev nD) (i : grid0.Coords) (b : Bufs0) (x : Ins0 F) (hc0 : cond0_0 i) (hc1 : ¬cond0_1 i) :
    out0_A_5 c i b x hc0 hc1 = k0_pay6 x.x0 x.x1 x.x2 := by
  unfold out0_A_5
  rw [View.read_writes_eq_canon _ _ _ (out0_A_5_cover c i b x hc0 hc1)]
  unfold kernelRun0_A
  dsimp only
  sl_unfold_words
  rw [View.canon_unit_zero hz3]
  simp only [View.readAt_eq_ld, b.h2.read_unread, b.h3.read_unread, b.h4.read_unread, b.h5.read_unread, b.h6.read_unread, b.h11.read_unread, View.ld_unit_zero (S := S1x512x1024) hz3, View.ld_unit_zero (S := S1024x1024) hz2, View.ld_unit_zero (S := S1024) hz1, View.ld_unit_zero (S := S1x1024) hz2]

theorem pieceA6 (c : Dev nD) (i : grid0.Coords) (b : Bufs0) (x : Ins0 F) (hc0 : cond0_0 i) (hc1 : ¬cond0_1 i) :
    out0_A_6 c i b x hc0 hc1 = k0_pay7 x.x0 x.x3 x.x4 := by
  unfold out0_A_6
  rw [View.read_writes_eq_canon _ _ _ (out0_A_6_cover c i b x hc0 hc1)]
  unfold kernelRun0_A
  dsimp only
  sl_unfold_words
  rw [View.canon_unit_zero hz3]
  simp only [View.readAt_eq_ld, b.h2.read_unread, b.h3.read_unread, b.h4.read_unread, b.h5.read_unread, b.h6.read_unread, b.h11.read_unread, View.ld_unit_zero (S := S1x512x1024) hz3, View.ld_unit_zero (S := S1024x1024) hz2, View.ld_unit_zero (S := S1024) hz1, View.ld_unit_zero (S := S1x1024) hz2]

theorem pieceA7 (c : Dev nD) (i : grid0.Coords) (b : Bufs0) (x : Ins0 F) (hc0 : cond0_0 i) (hc1 : ¬cond0_1 i) :
    out0_A_7 c i b x hc0 hc1 = k0_pay8 x.x0 := by
  unfold out0_A_7
  rw [View.read_writes_eq_canon _ _ _ (out0_A_7_cover c i b x hc0 hc1)]
  unfold kernelRun0_A
  dsimp only
  sl_unfold_words
  rw [View.canon_unit_zero hz3]
  simp only [View.readAt_eq_ld, b.h2.read_unread, b.h3.read_unread, b.h4.read_unread, b.h5.read_unread, b.h6.read_unread, b.h11.read_unread, View.ld_unit_zero (S := S1x512x1024) hz3, View.ld_unit_zero (S := S1024x1024) hz2, View.ld_unit_zero (S := S1024) hz1, View.ld_unit_zero (S := S1x1024) hz2]

theorem pieceB5 (c : Dev nD) (i : grid0.Coords) (b : Bufs0) (x : Ins0 F) (hc0 : ¬cond0_0 i) (hc1 : ¬cond0_1 i) (xs0 : Vec F S1x1024 .f32) :
    out0_B_5 c i b x hc0 hc1 xs0 = k0_pay6 x.x0 x.x1 x.x2 := by
  unfold out0_B_5
  rw [View.read_writes_eq_canon _ _ _ (out0_B_5_cover c i b x hc0 hc1 xs0)]
  unfold kernelRun0_B
  dsimp only
  sl_unfold_words
  rw [View.canon_unit_zero hz3]
  simp only [View.readAt_eq_ld, b.h2.read_unread, b.h3.read_unread, b.h4.read_unread, b.h5.read_unread, b.h6.read_unread, b.h11.read_unread, View.ld_unit_zero (S := S1x512x1024) hz3, View.ld_unit_zero (S := S1024x1024) hz2, View.ld_unit_zero (S := S1024) hz1, View.ld_unit_zero (S := S1x1024) hz2]

theorem pieceB6 (c : Dev nD) (i : grid0.Coords) (b : Bufs0) (x : Ins0 F) (hc0 : ¬cond0_0 i) (hc1 : ¬cond0_1 i) (xs0 : Vec F S1x1024 .f32) :
    out0_B_6 c i b x hc0 hc1 xs0 = k0_pay7 x.x0 x.x3 x.x4 := by
  unfold out0_B_6
  rw [View.read_writes_eq_canon _ _ _ (out0_B_6_cover c i b x hc0 hc1 xs0)]
  unfold kernelRun0_B
  dsimp only
  sl_unfold_words
  rw [View.canon_unit_zero hz3]
  simp only [View.readAt_eq_ld, b.h2.read_unread, b.h3.read_unread, b.h4.read_unread, b.h5.read_unread, b.h6.read_unread, b.h11.read_unread, View.ld_unit_zero (S := S1x512x1024) hz3, View.ld_unit_zero (S := S1024x1024) hz2, View.ld_unit_zero (S := S1024) hz1, View.ld_unit_zero (S := S1x1024) hz2]

theorem pieceB7 (c : Dev nD) (i : grid0.Coords) (b : Bufs0) (x : Ins0 F) (hc0 : ¬cond0_0 i) (hc1 : ¬cond0_1 i) (xs0 : Vec F S1x1024 .f32) :
    out0_B_7 c i b x hc0 hc1 xs0 = k0_pay8 x.x0 := by
  unfold out0_B_7
  rw [View.read_writes_eq_canon _ _ _ (out0_B_7_cover c i b x hc0 hc1 xs0)]
  unfold kernelRun0_B
  dsimp only
  sl_unfold_words
  rw [View.canon_unit_zero hz3]
  simp only [View.readAt_eq_ld, b.h2.read_unread, b.h3.read_unread, b.h4.read_unread, b.h5.read_unread, b.h6.read_unread, b.h11.read_unread, View.ld_unit_zero (S := S1x512x1024) hz3, View.ld_unit_zero (S := S1024x1024) hz2, View.ld_unit_zero (S := S1024) hz1, View.ld_unit_zero (S := S1x1024) hz2]

theorem pieceC5 (c : Dev nD) (i : grid0.Coords) (b : Bufs0) (x : Ins0 F) (hc0 : ¬cond0_0 i) (hc1 : cond0_1 i) (xs0 : Vec F S1x1024 .f32) :
    out0_C_5 c i b x hc0 hc1 xs0 = k0_pay6 x.x0 x.x1 x.x2 := by
  unfold out0_C_5
  rw [View.read_writes_eq_canon _ _ _ (out0_C_5_cover c i b x hc0 hc1 xs0)]
  unfold kernelRun0_C
  dsimp only
  sl_unfold_words
  rw [View.canon_unit_zero hz3]
  simp only [View.readAt_eq_ld, b.h2.read_unread, b.h3.read_unread, b.h4.read_unread, b.h5.read_unread, b.h6.read_unread, b.h11.read_unread, View.ld_unit_zero (S := S1x512x1024) hz3, View.ld_unit_zero (S := S1024x1024) hz2, View.ld_unit_zero (S := S1024) hz1, View.ld_unit_zero (S := S1x1024) hz2]

theorem pieceC6 (c : Dev nD) (i : grid0.Coords) (b : Bufs0) (x : Ins0 F) (hc0 : ¬cond0_0 i) (hc1 : cond0_1 i) (xs0 : Vec F S1x1024 .f32) :
    out0_C_6 c i b x hc0 hc1 xs0 = k0_pay7 x.x0 x.x3 x.x4 := by
  unfold out0_C_6
  rw [View.read_writes_eq_canon _ _ _ (out0_C_6_cover c i b x hc0 hc1 xs0)]
  unfold kernelRun0_C
  dsimp only
  sl_unfold_words
  rw [View.canon_unit_zero hz3]
  simp only [View.readAt_eq_ld, b.h2.read_unread, b.h3.read_unread, b.h4.read_unread, b.h5.read_unread, b.h6.read_unread, b.h11.read_unread, View.ld_unit_zero (S := S1x512x1024) hz3, View.ld_unit_zero (S := S1024x1024) hz2, View.ld_unit_zero (S := S1024) hz1, View.ld_unit_zero (S := S1x1024) hz2]

theorem pieceC7 (c : Dev nD) (i : grid0.Coords) (b : Bufs0) (x : Ins0 F) (hc0 : ¬cond0_0 i) (hc1 : cond0_1 i) (xs0 : Vec F S1x1024 .f32) :
    out0_C_7 c i b x hc0 hc1 xs0 = k0_pay8 x.x0 := by
  unfold out0_C_7
  rw [View.read_writes_eq_canon _ _ _ (out0_C_7_cover c i b x hc0 hc1 xs0)]
  unfold kernelRun0_C
  dsimp only
  sl_unfold_words
  rw [View.canon_unit_zero hz3]
  simp only [View.readAt_eq_ld, b.h2.read_unread, b.h3.read_unread, b.h4.read_unread, b.h5.read_unread, b.h6.read_unread, b.h11.read_unread, View.ld_unit_zero (S := S1x512x1024) hz3, View.ld_unit_zero (S := S1024x1024) hz2, View.ld_unit_zero (S := S1024) hz1, View.ld_unit_zero (S := S1x1024) hz2]

theorem pieceAS (c : Dev nD) (i : grid0.Coords) (b : Bufs0) (x : Ins0 F) (hc0 : cond0_0 i) (hc1 : ¬cond0_1 i) :
    sout0_A_0 c i b x hc0 hc1 = k0_pay1 (k0_pay4 x.x0) (k0_pay3 (F := F)) := by
  unfold sout0_A_0
  rw [View.read_writes_eq_canon _ _ _ (sout0_A_0_cover c i b x hc0 hc1)]
  unfold kernelRun0_A
  dsimp only
  sl_unfold_words
  rw [View.canon_cons_unit_zero (S := S1x1024) hz2, View.readCov_unit_zero (S := S1x1024) _ hz2]
  simp only [View.readAt_eq_ld, b.h2.read_unread, b.h3.read_unread, b.h4.read_unread, b.h5.read_unread, b.h6.read_unread, b.h11.read_unread, View.ld_unit_zero (S := S1x512x1024) hz3, View.ld_unit_zero (S := S1024x1024) hz2, View.ld_unit_zero (S := S1024) hz1, View.ld_unit_zero (S := S1x1024) hz2]

theorem pieceBS (c : Dev nD) (i : grid0.Coords) (b : Bufs0) (x : Ins0 F) (hc0 : ¬cond0_0 i) (hc1 : ¬cond0_1 i) (xs0 : Vec F S1x1024 .f32) :
    sout0_B_0 c i b x hc0 hc1 xs0 = k0_pay1 (k0_pay4 x.x0) xs0 := by
  unfold sout0_B_0
  rw [View.read_writes_eq_canon _ _ _ (sout0_B_0_cover c i b x hc0 hc1 xs0)]
  unfold kernelRun0_B
  dsimp only
  sl_unfold_words
  rw [View.canon_unit_zero hz2]
  simp only [View.readAt_eq_ld, b.h2.read_unread, b.h3.read_unread, b.h4.read_unread, b.h5.read_unread, b.h6.read_unread, b.h11.read_unread, View.ld_unit_zero (S := S1x512x1024) hz3, View.ld_unit_zero (S := S1024x1024) hz2, View.ld_unit_zero (S := S1024) hz1, View.ld_unit_zero (S := S1x1024) hz2]

theorem pieceCS (c : Dev nD) (i : grid0.Coords) (b : Bufs0) (x : Ins0 F) (hc0 : ¬cond0_0 i) (hc1 : cond0_1 i) (xs0 : Vec F S1x1024 .f32) :
    sout0_C_0 c i b x hc0 hc1 xs0 = k0_pay1 (k0_pay4 x.x0) xs0 := by
  unfold sout0_C_0
  rw [View.read_writes_eq_canon _ _ _ (sout0_C_0_cover c i b x hc0 hc1 xs0)]
  unfold kernelRun0_C
  dsimp only
  sl_unfold_words
  rw [View.canon_unit_zero hz2]
  simp only [View.readAt_eq_ld, b.h2.read_unread, b.h3.read_unread, b.h4.read_unread, b.h5.read_unread, b.h6.read_unread, b.h11.read_unread, View.ld_unit_zero (S := S1x512x1024) hz3, View.ld_unit_zero (S := S1024x1024) hz2, View.ld_unit_zero (S := S1024) hz1, View.ld_unit_zero (S := S1x1024) hz2]

theorem pieceC8 (c : Dev nD) (i : grid0.Coords) (b : Bufs0) (x : Ins0 F) (hc0 : ¬cond0_0 i) (hc1 : cond0_1 i) (xs0 : Vec F S1x1024 .f32) :
    out0_C_8 c i b x hc0 hc1 xs0 = k0_pay2 (k0_pay1 (k0_pay4 x.x0) xs0) := by
  unfold out0_C_8
  rw [View.read_writes_eq_canon _ _ _ (out0_C_8_cover c i b x hc0 hc1 xs0)]
  unfold kernelRun0_C
  dsimp only
  sl_unfold_words
  rw [View.canon_unit_zero hz3]
  simp only [View.readAt_eq_ld, b.h2.read_unread, b.h3.read_unread, b.h4.read_unread, b.h5.read_unread, b.h6.read_unread, b.h11.read_unread, View.ld_unit_zero (S := S1x512x1024) hz3, View.ld_unit_zero (S := S1024x1024) hz2, View.ld_unit_zero (S := S1024) hz1, View.ld_unit_zero (S := S1x1024) hz2, View.readCov_unit_zero (S := S1x1024) _ hz2]

theorem matmul_proj_apply (lhs : FVec Ideal S512x1024 .bf16) (rhs : FVec Ideal S1024x1024 .bf16) (r : Fin 512) (e : Fin 1024) :
    matmul dot_S512x1024_S1024x1024_S512x1024_1_1_0_0_n_n none lhs rhs (constant (F := Ideal) S512x1024 .f32 0x00000000#32) (ix2 r e)
      = ∑ d : Fin 1024, lhs (ix2 r d) * rhs (ix2 e d) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  refine congrArg₂ (· * ·) (congrArg lhs (funext fun a => Fin.ext ?_)) (congrArg rhs (funext fun a => Fin.ext ?_))
  · match a with
    | ⟨0, _⟩ => rfl
    | ⟨1, _⟩ => exact (dot_S512x1024_S1024x1024_S512x1024_1_1_0_0_n_n.lhsIdx_val_of_single rfl _ _).trans hk
  · match a with
    | ⟨0, _⟩ => rfl
    | ⟨1, _⟩ => exact (dot_S512x1024_S1024x1024_S512x1024_1_1_0_0_n_n.rhsIdx_val_of_single rfl _ _).trans hk

theorem pay4_apply (x0 : Vec Ideal S1x512x1024 .f32) (r : Fin 512) (d : Fin 1024) :
    k0_pay4 (F := Ideal) x0 (ix2 r d) = x0 (ix3 (0 : Fin 1) r d) :=
  shapeCast_1ab_ab_apply x0 _ r d

theorem pay5_apply (x0 : Vec Ideal S1x512x1024 .f32) (r : Fin 512) (d : Fin 1024) :
    k0_pay5 (F := Ideal) x0 (ix2 r d) = x0 (ix3 (0 : Fin 1) r d) :=
  pay4_apply x0 r d

theorem pay8_apply (x0 : Vec Ideal S1x512x1024 .f32) (u : Fin 1) (r : Fin 512) (d : Fin 1024) :
    k0_pay8 (F := Ideal) x0 (ix3 u r d) = x0 (ix3 (0 : Fin 1) r d) := by
  unfold k0_pay8
  exact (shapeCast_ab_1ab_apply _ _ u r d).trans (pay5_apply x0 r d)

/-- The query and the key projection are one function of weights and bias: the rows times the transposed weights, plus the bias. -/
theorem pay6_apply (x0 : Vec Ideal S1x512x1024 .f32) (w : Vec Ideal S1024x1024 .bf16) (bias : Vec Ideal S1024 .f32)
    (u : Fin 1) (r : Fin 512) (e : Fin 1024) :
    k0_pay6 (F := Ideal) x0 w bias (ix3 u r e)
      = (∑ d : Fin 1024, x0 (ix3 (0 : Fin 1) r d) * w (ix2 e d)) + bias (ix1 e) := by
  unfold k0_pay6
  refine (shapeCast_ab_1ab_apply _ _ u r e).trans ?_
  refine (truncf_apply (φ := .f32) (ψ := .bf16) _ bitsLt_bf16_f32 (ix2 r e)).trans ?_
  refine (addf_apply _ _ _).trans ?_
  refine congrArg₂ (· + ·) ?_ ?_
  · refine (matmul_proj_apply _ _ r e).trans ?_
    refine Finset.sum_congr rfl fun d _ => ?_
    exact congrArg₂ (· * ·) (pay5_apply x0 r d) (congrFun (shapeCast_self w _) (ix2 e d))
  · refine (broadcastTo_1b_ab_apply _ _ r e).trans ?_
    exact shapeCast_a_1a_apply bias _ (0 : Fin 1) e

theorem pay3_apply (u : Fin 1) (d : Fin 1024) : k0_pay3 (F := Ideal) (ix2 u d) = 0 := by
  unfold k0_pay3
  exact (congrFun (shapeCast_self _ _) (ix2 u d)).trans Cert.Spec.ofBits_zero

theorem pay1_apply (v4 : FVec Ideal S512x1024 .f32) (v31 : Vec Ideal S1x1024 .f32) (u : Fin 1) (d : Fin 1024) :
    k0_pay1 (F := Ideal) v4 v31 (ix2 u d) = v31 (ix2 u d) + ∑ r : Fin 512, v4 (ix2 r d) := by
  unfold k0_pay1
  refine (congrFun (shapeCast_self _ _) (ix2 u d)).trans ?_
  refine (addf_apply _ _ _).trans ?_
  refine congrArg (v31 (ix2 u d) + ·) ?_
  refine (shapeCast_a_1a_apply _ _ u d).trans ?_
  refine (Ideal.multiReduction_add_single v4 _ reduces_S512x1024_S1024 _ _ (ix1 d)).trans ?_
  refine Finset.sum_congr rfl fun r _ => ?_
  exact congrArg v4 (funext fun a => Fin.ext (by
    match a with
    | ⟨0, _⟩ => rfl
    | ⟨1, _⟩ => rfl))

theorem pay2_apply (v41 : Vec Ideal S1x1024 .f32) (u v : Fin 1) (d : Fin 1024) :
    k0_pay2 (F := Ideal) v41 (ix3 u v d) = v41 (ix2 v d) * (((1 / 2048 : ℝ) : ℝ) : EReal) :=
  (shapeCast_ab_1ab_apply _ _ u v d).trans ((mulf_apply _ _ _).trans (congrArg (v41 (ix2 v d) * ·) Cert.Spec.ofBits_inv2048))

section Value

variable (V : (c : Dev nD) → (b : Ref sig .tc) → Buf (Elt Ideal) ((c : Thread nD τ).loc b))

abbrev xarr (c : Dev nD) : Vec Ideal S4x2048x1024 .f32 := V c main_arg0
abbrev xblk (c : Dev nD) (t : Fin cfg0.N) : Vec Ideal S1x512x1024 .f32 := iblk0 V c 0 t

theorem idx_facts : ∀ t : Fin cfg0.N,
    (win0_0.index t (0 : Fin 3) = t.val / 4 ∧ win0_0.index t (1 : Fin 3) = t.val % 4 ∧ win0_0.index t (2 : Fin 3) = 0)
    ∧ (∀ a, win0_1.index t a = 0) ∧ (∀ a, win0_2.index t a = 0) ∧ (∀ a, win0_3.index t a = 0) ∧ (∀ a, win0_4.index t a = 0)
    ∧ (win0_8.index t (0 : Fin 3) = t.val / 4 ∧ win0_8.index t (1 : Fin 3) = 0 ∧ win0_8.index t (2 : Fin 3) = 0) :=
  (by decide +kernel : ∀ t : Fin grid0.N, _)

/-- Where element `j` of the block at point `t` sits in an array cut into blocks of 512 rows. -/
abbrev Sits (t : Fin cfg0.N) (emb : S1x512x1024.Idx → S4x2048x1024.Idx) : Prop :=
  ∀ j, (emb j 0).val = t.val / 4 ∧ (emb j 1).val = 512 * (t.val % 4) + (j 1).val ∧ (emb j 2).val = (j 2).val

theorem sits0 (t : Fin cfg0.N) : Sits t ((cfg0.win 0).blk t).view.emb := fun j => by
  obtain ⟨⟨e0, e1, e2⟩, -⟩ := idx_facts t
  have hj0 : (j 0).val < 1 := (j 0).isLt
  refine ⟨?_, ?_, ?_⟩
  · show win0_0.index t (0 : Fin 3) * 1 + 1 * (j 0).val = t.val / 4
    rw [e0]; omega
  · show win0_0.index t (1 : Fin 3) * 512 + 1 * (j 1).val = 512 * (t.val % 4) + (j 1).val
    rw [e1]; omega
  · show win0_0.index t (2 : Fin 3) * 1024 + 1 * (j 2).val = (j 2).val
    rw [e2]; omega

/-- The three outputs are split into row blocks exactly as the input rows are. -/
theorem sits5 (t : Fin cfg0.N) : Sits t ((cfg0.win 5).blk t).view.emb := sits0 t
theorem sits6 (t : Fin cfg0.N) : Sits t ((cfg0.win 6).blk t).view.emb := sits0 t
theorem sits7 (t : Fin cfg0.N) : Sits t ((cfg0.win 7).blk t).view.emb := sits0 t

theorem xblk_apply (c : Dev nD) (t : Fin cfg0.N) (u : Fin 1) (r : Fin 512) (d : Fin 1024) (b : Fin 4) (s : Fin 2048)
    (hb : b.val = t.val / 4) (hs : s.val = 512 * (t.val % 4) + r.val) :
    xblk V c t (ix3 u r d) = xarr V c (ix3 b s d) := by
  obtain ⟨e0, e1, e2⟩ := sits0 t (ix3 u r d)
  refine congrArg (V c main_arg0) (funext fun a => Fin.ext ?_)
  match a with
  | ⟨0, _⟩ => exact e0.trans hb.symm
  | ⟨1, _⟩ => exact e1.trans hs.symm
  | ⟨2, _⟩ => exact e2

theorem wblk_eq (c : Dev nD) (t : Fin cfg0.N) :
    (iblk0 V c 1 t : Vec Ideal S1024x1024 .bf16) = V c main_v0 ∧ (iblk0 V c 2 t : Vec Ideal S1024 .f32) = V c main_arg2
    ∧ (iblk0 V c 3 t : Vec Ideal S1024x1024 .bf16) = V c main_v1 ∧ (iblk0 V c 4 t : Vec Ideal S1024 .f32) = V c main_arg4 := by
  obtain ⟨-, h1, h2, h3, h4, -⟩ := idx_facts t
  exact ⟨funext fun j => congrArg (V c main_v0) (funext fun a => Fin.ext (win0_1.rect_emb_val_of_index_zero t a (h1 a) j)),
    funext fun j => congrArg (V c main_arg2) (funext fun a => Fin.ext (win0_2.rect_emb_val_of_index_zero t a (h2 a) j)),
    funext fun j => congrArg (V c main_v1) (funext fun a => Fin.ext (win0_3.rect_emb_val_of_index_zero t a (h3 a) j)),
    funext fun j => congrArg (V c main_arg4) (funext fun a => Fin.ext (win0_4.rect_emb_val_of_index_zero t a (h4 a) j))⟩

theorem outs_eq (c : Dev nD) (t : Fin cfg0.N) :
    (outsAt0 V c t.val t.isLt).q = k0_pay6 (xblk V c t) (iblk0 V c 1 t) (iblk0 V c 2 t)
    ∧ (outsAt0 V c t.val t.isLt).k = k0_pay6 (xblk V c t) (iblk0 V c 3 t) (iblk0 V c 4 t)
    ∧ (outsAt0 V c t.val t.isLt).xb = k0_pay8 (xblk V c t)
    ∧ (t.val % 4 = 0 → (outsAt0 V c t.val t.isLt).sc = k0_pay1 (k0_pay4 (xblk V c t)) (k0_pay3 (F := Ideal)))
    ∧ (¬t.val % 4 = 0 → (outsAt0 V c t.val t.isLt).sc
        = k0_pay1 (k0_pay4 (xblk V c t)) (outsAt0 V c (t.val - 1) (Nat.lt_of_le_of_lt (Nat.sub_le _ _) t.isLt)).sc)
    ∧ (t.val % 4 = 3 → (outsAt0 V c t.val t.isLt).mean = k0_pay2 (outsAt0 V c t.val t.isLt).sc) := by
  by_cases h0 : t.val % 4 = 0
  · have hc0 : cond0_0 (grid0.coords t) := (hcond0_0 t).mpr h0
    have hc1 : ¬cond0_1 (grid0.coords t) := fun h => by have h3 := (hcond0_1 t).mp h; omega
    rw [outsAt0_A V c t h0 hc0 hc1]; unfold ptA0; dsimp only
    exact ⟨pieceA5 _ _ _ _ hc0 hc1, pieceA6 _ _ _ _ hc0 hc1, pieceA7 _ _ _ _ hc0 hc1,
      fun _ => pieceAS _ _ _ _ hc0 hc1, fun h => absurd h0 h, fun h => by omega⟩
  · have hc0 : ¬cond0_0 (grid0.coords t) := fun h => h0 ((hcond0_0 t).mp h)
    by_cases h1 : t.val % 4 = 3
    · have hc1 : cond0_1 (grid0.coords t) := (hcond0_1 t).mpr h1
      rw [outsAt0_C V c t h0 h1 hc0 hc1]; unfold ptC0; dsimp only
      exact ⟨pieceC5 _ _ _ _ hc0 hc1 _, pieceC6 _ _ _ _ hc0 hc1 _, pieceC7 _ _ _ _ hc0 hc1 _,
        fun h => absurd h h0, fun _ => pieceCS _ _ _ _ hc0 hc1 _,
        fun _ => (pieceC8 _ _ _ _ hc0 hc1 _).trans (congrArg (k0_pay2 (F := Ideal)) (pieceCS _ _ _ _ hc0 hc1 _).symm)⟩
    · have hc1 : ¬cond0_1 (grid0.coords t) := fun h => h1 ((hcond0_1 t).mp h)
      rw [outsAt0_B V c t h0 h1 hc0 hc1]; unfold ptB0; dsimp only
      exact ⟨pieceB5 _ _ _ _ hc0 hc1 _, pieceB6 _ _ _ _ hc0 hc1 _, pieceB7 _ _ _ _ hc0 hc1 _,
        fun h => absurd h h0, fun _ => pieceBS _ _ _ _ hc0 hc1 _, fun h => absurd h h1⟩

def projG (c : Dev nD) (w : Vec Ideal S1024x1024 .bf16) (bias : Vec Ideal S1024 .f32) : Vec Ideal S4x2048x1024 .bf16 :=
  fun i => Cert.Spec.proj (xarr V c) w bias (i 0) (i 1) (i 2)

/-- Row `r` of the block at point `t` is row `512 * (t % 4) + r` of batch `t / 4`: the block's product is that row's projection. -/
theorem proj_entry (c : Dev nD) (t : Fin cfg0.N) {wb w : Vec Ideal S1024x1024 .bf16} {bb bias : Vec Ideal S1024 .f32} (hw : wb = w) (hb : bb = bias)
    (y : S1x512x1024.Idx) (i : S4x2048x1024.Idx)
    (h0 : (i 0).val = t.val / 4) (h1 : (i 1).val = 512 * (t.val % 4) + (y 1).val) (h2 : (i 2).val = (y 2).val) :
    k0_pay6 (F := Ideal) (xblk V c t) wb bb y = projG V c w bias i := by
  subst hw hb
  obtain ⟨u, r, e, rfl⟩ : ∃ (u : Fin 1) (r : Fin 512) (e : Fin 1024), y = ix3 u r e := ⟨y 0, y 1, y 2, eq_ix3 y⟩
  obtain rfl : e = i 2 := Fin.ext h2.symm
  refine (pay6_apply (xblk V c t) wb bb u r (i 2)).trans ?_
  exact congrArg (· + bb (ix1 (i 2))) (Finset.sum_congr rfl fun d _ => congrArg (· * wb (ix2 (i 2) d)) (xblk_apply V c t 0 r d (i 0) (i 1) h0 h1))

theorem xb_entry (c : Dev nD) (t : Fin cfg0.N) (y : S1x512x1024.Idx) (i : S4x2048x1024.Idx)
    (h0 : (i 0).val = t.val / 4) (h1 : (i 1).val = 512 * (t.val % 4) + (y 1).val) (h2 : (i 2).val = (y 2).val) :
    k0_pay8 (F := Ideal) (xblk V c t) y = xarr V c i := by
  obtain ⟨u, r, e, rfl⟩ : ∃ (u : Fin 1) (r : Fin 512) (e : Fin 1024), y = ix3 u r e := ⟨y 0, y 1, y 2, eq_ix3 y⟩
  obtain rfl : e = i 2 := Fin.ext h2.symm
  exact (pay8_apply (xblk V c t) u r (i 2)).trans ((xblk_apply V c t 0 r (i 2) (i 0) (i 1) h0 h1).trans (congrArg (xarr V c) (eq_ix3 i).symm))

def ptOf (i : S4x2048x1024.Idx) : Fin cfg0.N :=
  ⟨4 * (i 0).val + (i 1).val / 512, by
    have h0 : (i 0).val < 4 := (i 0).isLt
    have h1 : (i 1).val < 2048 := (i 1).isLt
    rw [show cfg0.N = 16 from N_0]; omega⟩

theorem mem_of_emb {α β : Type} (s : Finset β) (emb : α → β) (hs : ∀ j, emb j ∈ s) {j : α} {i : β} (hj : emb j = i) : i ∈ s := hj ▸ hs j

/-- Every row lies in the block of the point that its batch and its row block name. -/
theorem hits (i : S4x2048x1024.Idx) (emb : S1x512x1024.Idx → S4x2048x1024.Idx) (s : Finset S4x2048x1024.Idx) (hs : ∀ j, emb j ∈ s)
    (h : Sits (ptOf i) emb) : i ∈ s := by
  have h1 : (i 1).val < 2048 := (i 1).isLt
  have hv : (ptOf i).val = 4 * (i 0).val + (i 1).val / 512 := rfl
  obtain ⟨j, hj1, hj2⟩ : ∃ j : S1x512x1024.Idx, (j 1).val = (i 1).val % 512 ∧ (j 2).val = (i 2).val :=
    ⟨ix3 (0 : Fin 1) ⟨(i 1).val % 512, Nat.mod_lt _ (by decide)⟩ (i 2), rfl, rfl⟩
  obtain ⟨e0, e1, e2⟩ := h j
  refine mem_of_emb s emb hs (j := j) (funext fun a => Fin.ext ?_)
  match a with
  | ⟨0, _⟩ => exact e0.trans (show _ = (i 0).val by rw [hv]; omega)
  | ⟨1, _⟩ => exact e1.trans (show _ = (i 1).val by rw [hv, hj1]; omega)
  | ⟨2, _⟩ => exact e2.trans hj2

theorem final5 (c : Dev nD) : (dat0 (F := Ideal) V c).arrAt 5 cfg0.N = projG V c (V c main_v0) (V c main_arg2) := by
  refine (dat0 V c).arrAt_eq_of_cover 5 _ (fun t _ => funext fun j => ?_) fun i => ⟨ptOf i, flush0_5 _, hits i _ _ (View.emb_mem_set _) (sits5 _)⟩
  obtain ⟨h0, h1, h2⟩ := sits5 t j
  exact (congrFun (outs_eq V c t).1 ((cfg0.win 5).xinj (grid0.coords t) j)).trans (proj_entry V c t (wblk_eq V c t).1 (wblk_eq V c t).2.1 _ _ h0 h1 h2)

theorem final6 (c : Dev nD) : (dat0 (F := Ideal) V c).arrAt 6 cfg0.N = projG V c (V c main_v1) (V c main_arg4) := by
  refine (dat0 V c).arrAt_eq_of_cover 6 _ (fun t _ => funext fun j => ?_) fun i => ⟨ptOf i, flush0_6 _, hits i _ _ (View.emb_mem_set _) (sits6 _)⟩
  obtain ⟨h0, h1, h2⟩ := sits6 t j
  exact (congrFun (outs_eq V c t).2.1 ((cfg0.win 6).xinj (grid0.coords t) j)).trans (proj_entry V c t (wblk_eq V c t).2.2.1 (wblk_eq V c t).2.2.2 _ _ h0 h1 h2)

theorem final7 (c : Dev nD) : (dat0 (F := Ideal) V c).arrAt 7 cfg0.N = fun i => xarr V c i := by
  refine (dat0 V c).arrAt_eq_of_cover 7 _ (fun t _ => funext fun j => ?_) fun i => ⟨ptOf i, flush0_7 _, hits i _ _ (View.emb_mem_set _) (sits7 _)⟩
  obtain ⟨h0, h1, h2⟩ := sits7 t j
  exact (congrFun (outs_eq V c t).2.2.1 ((cfg0.win 7).xinj (grid0.coords t) j)).trans (xb_entry V c t _ _ h0 h1 h2)

theorem sc_step (c : Dev nD) (t : Fin cfg0.N) (b : Fin 4) (hb : b.val = t.val / 4) (d : Fin 1024) (acc : Vec Ideal S1x1024 .f32)
    (hacc : acc (ix2 0 d) = Cert.Spec.colSum (fun s => xarr V c (ix3 b s d)) (t.val % 4)) :
    k0_pay1 (F := Ideal) (k0_pay4 (xblk V c t)) acc (ix2 0 d) = Cert.Spec.colSum (fun s => xarr V c (ix3 b s d)) (t.val % 4 + 1) := by
  refine (pay1_apply (k0_pay4 (F := Ideal) (xblk V c t)) acc 0 d).trans ?_
  rw [hacc, Cert.Spec.colSum_succ]
  refine congrArg (Cert.Spec.colSum (fun s => xarr V c (ix3 b s d)) (t.val % 4) + ·) ?_
  refine Finset.sum_congr rfl fun r _ => (pay4_apply (xblk V c t) r d).trans ?_
  have hlt : 512 * (t.val % 4) + r.val < 2048 := by have := r.isLt; omega
  unfold Cert.Spec.blkAt
  rw [dif_pos hlt]
  exact xblk_apply V c t 0 r d b ⟨_, hlt⟩ hb rfl

/-- After the point at position `n` the column sum holds the batch's first `n % 4 + 1` row blocks. -/
theorem sc_inv (c : Dev nD) (n : ℕ) (hn : n < cfg0.N) (b : Fin 4) (hb : b.val = n / 4) (d : Fin 1024) :
    (outsAt0 V c n hn).sc (ix2 0 d) = Cert.Spec.colSum (fun s => xarr V c (ix3 b s d)) (n % 4 + 1) := by
  by_cases h0 : n % 4 = 0
  · refine (congrFun ((outs_eq V c ⟨n, hn⟩).2.2.2.1 h0) (ix2 0 d)).trans ?_
    refine sc_step V c ⟨n, hn⟩ b hb d (k0_pay3 (F := Ideal)) ((pay3_apply 0 d).trans ?_)
    show (0 : EReal) = Cert.Spec.colSum (fun s => xarr V c (ix3 b s d)) (n % 4)
    rw [h0]; rfl
  · refine (congrFun ((outs_eq V c ⟨n, hn⟩).2.2.2.2.1 h0) (ix2 0 d)).trans ?_
    refine sc_step V c ⟨n, hn⟩ b hb d _ ?_
    show (outsAt0 V c (n - 1) _).sc (ix2 0 d) = Cert.Spec.colSum (fun s => xarr V c (ix3 b s d)) (n % 4)
    rw [sc_inv c (n - 1) _ b (by omega) d]
    exact congrArg _ (by omega)
termination_by n
decreasing_by omega

def meanG (c : Dev nD) : Vec Ideal S4x1x1024 .f32 :=
  fun i => Cert.Spec.meanOf (fun s => xarr V c (ix3 (i 0) s (i 2)))

theorem mean_entry (c : Dev nD) (t : Fin cfg0.N) (h3 : t.val % 4 = 3) (y : S1x1x1024.Idx) (i : S4x1x1024.Idx)
    (h0 : (i 0).val = t.val / 4) (h2 : (i 2).val = (y 2).val) :
    k0_pay2 (F := Ideal) (outsAt0 V c t.val t.isLt).sc y = meanG V c i := by
  obtain ⟨u, v, d, rfl⟩ : ∃ (u : Fin 1) (v : Fin 1) (d : Fin 1024), y = ix3 u v d := ⟨y 0, y 1, y 2, eq_ix3 y⟩
  obtain rfl : d = i 2 := Fin.ext h2.symm
  obtain rfl : v = 0 := Subsingleton.elim _ _
  refine (pay2_apply (outsAt0 V c t.val t.isLt).sc u 0 (i 2)).trans ?_
  rw [sc_inv V c t.val t.isLt (i 0) h0 (i 2), h3]
  rfl

theorem sits8 (t : Fin cfg0.N) (j : S1x1x1024.Idx) :
    (((cfg0.win 8).blk t).view.emb j 0).val = t.val / 4 ∧ (((cfg0.win 8).blk t).view.emb j 2).val = (j 2).val := by
  obtain ⟨-, -, -, -, -, ⟨e0, -, e2⟩⟩ := idx_facts t
  have hj0 : (j 0).val < 1 := (j 0).isLt
  refine ⟨?_, ?_⟩
  · show win0_8.index t (0 : Fin 3) * 1 + 1 * (j 0).val = t.val / 4
    rw [e0]; omega
  · show win0_8.index t (2 : Fin 3) * 1024 + 1 * (j 2).val = (j 2).val
    rw [e2]; omega

def lastOf (i : S4x1x1024.Idx) : Fin cfg0.N :=
  ⟨4 * (i 0).val + 3, by
    have h0 : (i 0).val < 4 := (i 0).isLt
    rw [show cfg0.N = 16 from N_0]; omega⟩

theorem final8 (c : Dev nD) : (dat0 (F := Ideal) V c).arrAt 8 cfg0.N = meanG V c := by
  refine (dat0 V c).arrAt_eq_of_cover 8 _ (fun t hf => funext fun j => ?_) fun i => ?_
  · have h3 : t.val % 4 = 3 := (flush0_8 t).mp hf
    obtain ⟨h0, h2⟩ := sits8 t j
    exact (congrFun ((outs_eq V c t).2.2.2.2.2 h3) ((cfg0.win 8).xinj (grid0.coords t) j)).trans (mean_entry V c t h3 _ _ h0 h2)
  · have hv : (lastOf i).val = 4 * (i 0).val + 3 := rfl
    have h0 : (i 0).val < 4 := (i 0).isLt
    obtain ⟨j, hj2⟩ : ∃ j : S1x1x1024.Idx, (j 2).val = (i 2).val := ⟨ix3 (0 : Fin 1) (0 : Fin 1) (i 2), rfl⟩
    obtain ⟨e0, e2⟩ := sits8 (lastOf i) j
    refine ⟨lastOf i, (flush0_8 _).mpr (by rw [hv]; omega), mem_of_emb _ _ (View.emb_mem_set _) (j := j) (funext fun a => Fin.ext ?_)⟩
    match a with
    | ⟨0, _⟩ => exact e0.trans (show _ = (i 0).val by rw [hv]; omega)
    | ⟨1, _⟩ => exact congrArg Fin.val (Subsingleton.elim (α := Fin 1) _ _)
    | ⟨2, _⟩ => exact e2.trans hj2

end Value

end R0Value

section Finals

variable (V : (c : Dev nD) → (b : Ref sig .tc) → Buf (Elt Ideal) ((c : Thread nD τ).loc b))

theorem r0_q (c : Dev nD) (b : Fin 4) (s : Fin 2048) (e : Fin 1024) :
    (dat0 (F := Ideal) V c).arrAt 5 cfg0.N (ValueIdx.ix3 b s e) = Cert.Spec.proj (V c main_arg0) (V c main_v0) (V c main_arg2) b s e :=
  congrFun (R0Value.final5 V c) (ix3 b s e)

theorem r0_k (c : Dev nD) (b : Fin 4) (s : Fin 2048) (e : Fin 1024) :
    (dat0 (F := Ideal) V c).arrAt 6 cfg0.N (ValueIdx.ix3 b s e) = Cert.Spec.proj (V c main_arg0) (V c main_v1) (V c main_arg4) b s e :=
  congrFun (R0Value.final6 V c) (ix3 b s e)

theorem r0_xb (c : Dev nD) (b : Fin 4) (s : Fin 2048) (d : Fin 1024) :
    (dat0 (F := Ideal) V c).arrAt 7 cfg0.N (ValueIdx.ix3 b s d) = V c main_arg0 (ValueIdx.ix3 b s d) :=
  congrFun (R0Value.final7 V c) (ix3 b s d)

theorem r0_mean (c : Dev nD) (b : Fin 4) (d : Fin 1024) :
    (dat0 (F := Ideal) V c).arrAt 8 cfg0.N (ValueIdx.ix3 b 0 d) = Cert.Spec.meanOf (fun t => V c main_arg0 (ValueIdx.ix3 b t d)) :=
  congrFun (R0Value.final8 V c) (ix3 b 0 d)

end Finals

end Cert.KernelIdeal.Hand

end
-- ==== Proof.R1ValueA.lean ====
import proofs.«401480_j41566693490738_3_alg».proof.Proof.R1Outs
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem r1v_hz2 : (![0, 0] : Fin 2 → Nat) = fun _ => 0 := funext fun a => by fin_cases a <;> rfl
theorem r1v_hz3 : (![0, 0, 0] : Fin 3 → Nat) = fun _ => 0 := funext fun a => by fin_cases a <;> rfl

local notation "hz2" => r1v_hz2
local notation "hz3" => r1v_hz3

section CaseA
variable (c : Dev nD) (i : grid1.Coords) (b : Bufs1) (x : Ins1 F) (hc0 : cond1_0 i) (hc1 : ¬cond1_1 i)

theorem sout1_A_0_eq : sout1_A_0 c i b x hc0 hc1 = k1_pay2 (k1_pay8 x.x0 x.x1 k1_pay4) := by
  unfold sout1_A_0
  rw [View.read_writes_eq_canon _ _ _ (sout1_A_0_cover c i b x hc0 hc1)]
  unfold kernelRun1_A
  dsimp only
  sl_unfold_words
  rw [View.canon_cons_unit_zero (S := S1024x1) hz2]
  simp only [View.readAt_eq_ld, b.h3.read_unread, b.h4.read_unread, b.h5.read_unread, b.h6.read_unread, b.h7.read_unread, b.h9.read_unread, b.h10.read_unread, b.h11.read_unread, View.ld_unit_zero (S := S1x1024x1024) hz3, View.ld_unit_zero (S := S1x256x1024) hz3, View.ld_unit_zero (S := S1x1x1024) hz3, View.ld_unit_zero (S := S1024x1) hz2, View.ld_unit_zero (S := S1024x1024) hz2, View.readCov_unit_zero (S := S1024x1) _ hz2, View.readCov_unit_zero (S := S1024x1024) _ hz2]

theorem sout1_A_1_eq : sout1_A_1 c i b x hc0 hc1 = k1_pay11 x.x0 x.x1 k1_pay4 k1_pay5 := by
  unfold sout1_A_1
  rw [View.read_writes_eq_canon _ _ _ (sout1_A_1_cover c i b x hc0 hc1)]
  unfold kernelRun1_A
  dsimp only
  sl_unfold_words
  rw [View.canon_cons_unit_zero (S := S1024x1) hz2]
  simp only [View.readAt_eq_ld, b.h3.read_unread, b.h4.read_unread, b.h5.read_unread, b.h6.read_unread, b.h7.read_unread, b.h9.read_unread, b.h10.read_unread, b.h11.read_unread, View.ld_unit_zero (S := S1x1024x1024) hz3, View.ld_unit_zero (S := S1x256x1024) hz3, View.ld_unit_zero (S := S1x1x1024) hz3, View.ld_unit_zero (S := S1024x1) hz2, View.ld_unit_zero (S := S1024x1024) hz2, View.readCov_unit_zero (S := S1024x1) _ hz2, View.readCov_unit_zero (S := S1024x1024) _ hz2]

theorem sout1_A_2_eq : sout1_A_2 c i b x hc0 hc1 = k1_pay1 (k1_pay9 x.x0 x.x1 k1_pay4) (k1_pay12 x.x0 x.x1 x.x2 k1_pay4) k1_pay6 := by
  unfold sout1_A_2
  rw [View.read_writes_eq_canon _ _ _ (sout1_A_2_cover c i b x hc0 hc1)]
  unfold kernelRun1_A
  dsimp only
  sl_unfold_words
  rw [View.canon_cons_unit_zero (S := S1024x1024) hz2]
  simp only [View.readAt_eq_ld, b.h3.read_unread, b.h4.read_unread, b.h5.read_unread, b.h6.read_unread, b.h7.read_unread, b.h9.read_unread, b.h10.read_unread, b.h11.read_unread, View.ld_unit_zero (S := S1x1024x1024) hz3, View.ld_unit_zero (S := S1x256x1024) hz3, View.ld_unit_zero (S := S1x1x1024) hz3, View.ld_unit_zero (S := S1024x1) hz2, View.ld_unit_zero (S := S1024x1024) hz2, View.readCov_unit_zero (S := S1024x1) _ hz2, View.readCov_unit_zero (S := S1024x1024) _ hz2]

end CaseA

section CaseB
variable (c : Dev nD) (i : grid1.Coords) (b : Bufs1) (x : Ins1 F) (hc0 : ¬cond1_0 i) (hc1 : ¬cond1_1 i) (xs0 : Vec F S1024x1 .f32) (xs1 : Vec F S1024x1 .f32) (xs2 : Vec F S1024x1024 .f32)

theorem sout1_B_0_eq : sout1_B_0 c i b x hc0 hc1 xs0 xs1 xs2 = k1_pay2 (k1_pay8 x.x0 x.x1 xs0) := by
  unfold sout1_B_0
  rw [View.read_writes_eq_canon _ _ _ (sout1_B_0_cover c i b x hc0 hc1 xs0 xs1 xs2)]
  unfold kernelRun1_B
  dsimp only
  sl_unfold_words
  rw [View.canon_unit_zero (S := S1024x1) hz2]
  simp only [View.readAt_eq_ld, b.h3.read_unread, b.h4.read_unread, b.h5.read_unread, b.h6.read_unread, b.h7.read_unread, b.h9.read_unread, b.h10.read_unread, b.h11.read_unread, View.ld_unit_zero (S := S1x1024x1024) hz3, View.ld_unit_zero (S := S1x256x1024) hz3, View.ld_unit_zero (S := S1x1x1024) hz3, View.ld_unit_zero (S := S1024x1) hz2, View.ld_unit_zero (S := S1024x1024) hz2, View.readCov_unit_zero (S := S1024x1) _ hz2, View.readCov_unit_zero (S := S1024x1024) _ hz2]

theorem sout1_B_1_eq : sout1_B_1 c i b x hc0 hc1 xs0 xs1 xs2 = k1_pay11 x.x0 x.x1 xs0 xs1 := by
  unfold sout1_B_1
  rw [View.read_writes_eq_canon _ _ _ (sout1_B_1_cover c i b x hc0 hc1 xs0 xs1 xs2)]
  unfold kernelRun1_B
  dsimp only
  sl_unfold_words
  rw [View.canon_unit_zero (S := S1024x1) hz2]
  simp only [View.readAt_eq_ld, b.h3.read_unread, b.h4.read_unread, b.h5.read_unread, b.h6.read_unread, b.h7.read_unread, b.h9.read_unread, b.h10.read_unread, b.h11.read_unread, View.ld_unit_zero (S := S1x1024x1024) hz3, View.ld_unit_zero (S := S1x256x1024) hz3, View.ld_unit_zero (S := S1x1x1024) hz3, View.ld_unit_zero (S := S1024x1) hz2, View.ld_unit_zero (S := S1024x1024) hz2, View.readCov_unit_zero (S := S1024x1) _ hz2, View.readCov_unit_zero (S := S1024x1024) _ hz2]

theorem sout1_B_2_eq : sout1_B_2 c i b x hc0 hc1 xs0 xs1 xs2 = k1_pay1 (k1_pay9 x.x0 x.x1 xs0) (k1_pay12 x.x0 x.x1 x.x2 xs0) xs2 := by
  unfold sout1_B_2
  rw [View.read_writes_eq_canon _ _ _ (sout1_B_2_cover c i b x hc0 hc1 xs0 xs1 xs2)]
  unfold kernelRun1_B
  dsimp only
  sl_unfold_words
  rw [View.canon_unit_zero (S := S1024x1024) hz2]
  simp only [View.readAt_eq_ld, b.h3.read_unread, b.h4.read_unread, b.h5.read_unread, b.h6.read_unread, b.h7.read_unread, b.h9.read_unread, b.h10.read_unread, b.h11.read_unread, View.ld_unit_zero (S := S1x1024x1024) hz3, View.ld_unit_zero (S := S1x256x1024) hz3, View.ld_unit_zero (S := S1x1x1024) hz3, View.ld_unit_zero (S := S1024x1) hz2, View.ld_unit_zero (S := S1024x1024) hz2, View.readCov_unit_zero (S := S1024x1) _ hz2, View.readCov_unit_zero (S := S1024x1024) _ hz2]

end CaseB

section CaseC
variable (c : Dev nD) (i : grid1.Coords) (b : Bufs1) (x : Ins1 F) (hc0 : ¬cond1_0 i) (hc1 : cond1_1 i) (xs0 : Vec F S1024x1 .f32) (xs1 : Vec F S1024x1 .f32) (xs2 : Vec F S1024x1024 .f32)

theorem sout1_C_0_eq : sout1_C_0 c i b x hc0 hc1 xs0 xs1 xs2 = k1_pay2 (k1_pay8 x.x0 x.x1 xs0) := by
  unfold sout1_C_0
  rw [View.read_writes_eq_canon _ _ _ (sout1_C_0_cover c i b x hc0 hc1 xs0 xs1 xs2)]
  unfold kernelRun1_C
  dsimp only
  sl_unfold_words
  rw [View.canon_unit_zero (S := S1024x1) hz2]
  simp only [View.readAt_eq_ld, b.h3.read_unread, b.h4.read_unread, b.h5.read_unread, b.h6.read_unread, b.h7.read_unread, b.h9.read_unread, b.h10.read_unread, b.h11.read_unread, View.ld_unit_zero (S := S1x1024x1024) hz3, View.ld_unit_zero (S := S1x256x1024) hz3, View.ld_unit_zero (S := S1x1x1024) hz3, View.ld_unit_zero (S := S1024x1) hz2, View.ld_unit_zero (S := S1024x1024) hz2, View.readCov_unit_zero (S := S1024x1) _ hz2, View.readCov_unit_zero (S := S1024x1024) _ hz2]

theorem sout1_C_1_eq : sout1_C_1 c i b x hc0 hc1 xs0 xs1 xs2 = k1_pay11 x.x0 x.x1 xs0 xs1 := by
  unfold sout1_C_1
  rw [View.read_writes_eq_canon _ _ _ (sout1_C_1_cover c i b x hc0 hc1 xs0 xs1 xs2)]
  unfold kernelRun1_C
  dsimp only
  sl_unfold_words
  rw [View.canon_unit_zero (S := S1024x1) hz2]
  simp only [View.readAt_eq_ld, b.h3.read_unread, b.h4.read_unread, b.h5.read_unread, b.h6.read_unread, b.h7.read_unread, b.h9.read_unread, b.h10.read_unread, b.h11.read_unread, View.ld_unit_zero (S := S1x1024x1024) hz3, View.ld_unit_zero (S := S1x256x1024) hz3, View.ld_unit_zero (S := S1x1x1024) hz3, View.ld_unit_zero (S := S1024x1) hz2, View.ld_unit_zero (S := S1024x1024) hz2, View.readCov_unit_zero (S := S1024x1) _ hz2, View.readCov_unit_zero (S := S1024x1024) _ hz2]

theorem sout1_C_2_eq : sout1_C_2 c i b x hc0 hc1 xs0 xs1 xs2 = k1_pay1 (k1_pay9 x.x0 x.x1 xs0) (k1_pay12 x.x0 x.x1 x.x2 xs0) xs2 := by
  unfold sout1_C_2
  rw [View.read_writes_eq_canon _ _ _ (sout1_C_2_cover c i b x hc0 hc1 xs0 xs1 xs2)]
  unfold kernelRun1_C
  dsimp only
  sl_unfold_words
  rw [View.canon_unit_zero (S := S1024x1024) hz2]
  simp only [View.readAt_eq_ld, b.h3.read_unread, b.h4.read_unread, b.h5.read_unread, b.h6.read_unread, b.h7.read_unread, b.h9.read_unread, b.h10.read_unread, b.h11.read_unread, View.ld_unit_zero (S := S1x1024x1024) hz3, View.ld_unit_zero (S := S1x256x1024) hz3, View.ld_unit_zero (S := S1x1x1024) hz3, View.ld_unit_zero (S := S1024x1) hz2, View.ld_unit_zero (S := S1024x1024) hz2, View.readCov_unit_zero (S := S1024x1) _ hz2, View.readCov_unit_zero (S := S1024x1024) _ hz2]

theorem out1_C_5_eq : out1_C_5 c i b x hc0 hc1 xs0 xs1 xs2 = k1_pay3 (k1_pay1 (k1_pay9 x.x0 x.x1 xs0) (k1_pay12 x.x0 x.x1 x.x2 xs0) xs2) (k1_pay11 x.x0 x.x1 xs0 xs1) x.x3 x.x4 := by
  unfold out1_C_5
  rw [View.read_writes_eq_canon _ _ _ (out1_C_5_cover c i b x hc0 hc1 xs0 xs1 xs2)]
  unfold kernelRun1_C
  dsimp only
  sl_unfold_words
  rw [View.canon_unit_zero (S := S1x1024x1024) hz3]
  simp only [View.readAt_eq_ld, b.h3.read_unread, b.h4.read_unread, b.h5.read_unread, b.h6.read_unread, b.h7.read_unread, b.h9.read_unread, b.h10.read_unread, b.h11.read_unread, View.ld_unit_zero (S := S1x1024x1024) hz3, View.ld_unit_zero (S := S1x256x1024) hz3, View.ld_unit_zero (S := S1x1x1024) hz3, View.ld_unit_zero (S := S1024x1) hz2, View.ld_unit_zero (S := S1024x1024) hz2, View.readCov_unit_zero (S := S1024x1) _ hz2, View.readCov_unit_zero (S := S1024x1024) _ hz2]

end CaseC

end Cert.KernelIdeal.Hand

end
-- ==== Proof.R1Pay.lean ====
import proofs.«401480_j41566693490738_3_alg».proof.Proof.Gen.KernelIdeal.Skeleton
import proofs.«401480_j41566693490738_3_alg».proof.Proof.Spec
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

theorem ix2_eq {n0 n1 : ℕ} {i : (⟨2, ![n0, n1]⟩ : Shape).Idx} {a : Fin n0} {b : Fin n1}
    (h0 : (i 0).val = a.val) (h1 : (i 1).val = b.val) : i = ix2 a b :=
  funext fun k => Fin.ext (by
    match k with
    | ⟨0, _⟩ => exact h0
    | ⟨1, _⟩ => exact h1)

/-- Re-indexing the contraction by its one coordinate turns the product into a plain finite sum. -/
theorem dot_at {sl sr so : Shape} {φ₁ φ₂ : FTy} (D : DotDims sl sr so) (n : ℕ) (hr : D.contr.rank = 1)
    (hs : D.contr.size ⟨0, by omega⟩ = n) (a : FVec Ideal sl φ₁) (b : FVec Ideal sr φ₂) (i : so.Idx)
    (L : Fin n → sl.Idx) (R : Fin n → sr.Idx) (hL : ∀ k, D.lhsIdx i ((contrEquiv1 D n hr hs).symm k) = L k)
    (hR : ∀ k, D.rhsIdx i ((contrEquiv1 D n hr hs).symm k) = R k) :
    matmul D none a b (constant (F := Ideal) so .f32 0x00000000#32) i = ∑ k : Fin n, a (L k) * b (R k) := by
  refine (Ideal.matmul_constant_zero_apply D none a b i).trans ?_
  rw [← Equiv.sum_comp (contrEquiv1 D n hr hs).symm]
  exact Finset.sum_congr rfl fun k _ => by rw [hL, hR]

theorem qk_at (a : FVec Ideal S1024x1024 .bf16) (b : FVec Ideal S256x1024 .bf16) (r : Fin 1024) (j : Fin 256) :
    matmul dot_S1024x1024_S256x1024_S1024x256_1_1_0_0_n_n none a b (constant (F := Ideal) S1024x256 .f32 0x00000000#32) (ix2 r j)
      = ∑ e : Fin 1024, a (ix2 r e) * b (ix2 j e) :=
  dot_at _ 1024 rfl rfl a b _ _ _
    (fun k => ix2_eq rfl ((dot_S1024x1024_S256x1024_S1024x256_1_1_0_0_n_n.lhsIdx_val_of_single rfl _ _).trans (contrEquiv1_symm_val _ 1024 rfl rfl k)))
    (fun k => ix2_eq rfl ((dot_S1024x1024_S256x1024_S1024x256_1_1_0_0_n_n.rhsIdx_val_of_single rfl _ _).trans (contrEquiv1_symm_val _ 1024 rfl rfl k)))

theorem pv_at (a : FVec Ideal S1024x256 .bf16) (b : FVec Ideal S256x1024 .bf16) (r : Fin 1024) (d : Fin 1024) :
    matmul dot_S1024x256_S256x1024_S1024x1024_1_0_0_1_n_n none a b (constant (F := Ideal) S1024x1024 .f32 0x00000000#32) (ix2 r d)
      = ∑ j : Fin 256, a (ix2 r j) * b (ix2 j d) :=
  dot_at _ 256 rfl rfl a b _ _ _
    (fun k => ix2_eq rfl ((dot_S1024x256_S256x1024_S1024x1024_1_0_0_1_n_n.lhsIdx_val_of_single rfl _ _).trans (contrEquiv1_symm_val _ 256 rfl rfl k)))
    (fun k => ix2_eq ((dot_S1024x256_S256x1024_S1024x1024_1_0_0_1_n_n.rhsIdx_val_of_single rfl _ _).trans (contrEquiv1_symm_val _ 256 rfl rfl k)) rfl)

section Layout
variable {α : Type}

theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

theorem shapeCast_11a_a_apply {a : ℕ} (x : (⟨3, ![1, 1, a]⟩ : Shape).Idx → α) (h : (⟨3, ![1, 1, a]⟩ : Shape).ShapeCasts ⟨1, ![a]⟩)
    (d : Fin a) : shapeCast ⟨1, ![a]⟩ x h (ix1 d) = x (ix3 (0 : Fin 1) (0 : Fin 1) d) :=
  shapeCast_apply x h _ _ (by
    rw [Shape.rowMajor_val_three, Shape.rowMajor_val_one]
    show (0 * 1 + 0) * a + d.val = d.val
    simp only [Nat.zero_mul, Nat.zero_add])

theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

theorem lift_lane {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

end Layout

def tsc (x0 : Vec Ideal S1x1024x1024 .bf16) (x1 : Vec Ideal S1x256x1024 .bf16) (r : Fin 1024) (j : Fin 256) : EReal :=
  (∑ e : Fin 1024, x0 (ix3 0 r e) * x1 (ix3 0 j e)) * (((1 / 32 : ℝ) : ℝ) : EReal)

def tmax (x0 : Vec Ideal S1x1024x1024 .bf16) (x1 : Vec Ideal S1x256x1024 .bf16) (mi : Vec Ideal S1024x1 .f32) (r : Fin 1024) : EReal :=
  max (mi (ix2 r 0)) (Finset.univ.fold max ⊥ (tsc x0 x1 r))

section Body

variable (x0 : Vec Ideal S1x1024x1024 .bf16) (x1 : Vec Ideal S1x256x1024 .bf16) (x2 : Vec Ideal S1x256x1024 .bf16)
  (mi li : Vec Ideal S1024x1 .f32) (ai : Vec Ideal S1024x1024 .f32) (r d : Fin 1024)

theorem pay7_at (j : Fin 256) : k1_pay7 x0 x1 (ix2 r j) = tsc x0 x1 r j := by
  refine congrArg₂ (· * ·) ((qk_at _ _ r j).trans (Finset.sum_congr rfl fun e _ => ?_)) Cert.Spec.ofBits_inv32
  rw [shapeCast_1ab_ab_apply, shapeCast_1ab_ab_apply]

def rowMaxV : FVec Ideal S1024 .f32 :=
  multiReduction .maximumf [1] S1024 (k1_pay7 x0 x1) 0xFF800000#32 Facts₀.reduces_S1024x256_S1024 (.inl rfl) rfl

theorem rowMaxV_at : rowMaxV x0 x1 (ix1 r) = Finset.univ.fold max ⊥ (tsc x0 x1 r) := by
  refine (Ideal.multiReduction_maximumf_single _ _ _ _ _ (ix1 r)).trans ?_
  have e : (k1_pay7 x0 x1 ∘ Facts₀.reduces_S1024x256_S1024.lift (ix1 r)) = fun j : Fin 256 => tsc x0 x1 r j :=
    funext fun k => (congrArg (k1_pay7 x0 x1) (lift_lane _ r k)).trans (pay7_at x0 x1 r _)
  show (Finset.univ : Finset (Fin 256)).fold max (Ideal.ofBits .f32 0xFF800000#32)
    (k1_pay7 x0 x1 ∘ Facts₀.reduces_S1024x256_S1024.lift (ix1 r)) = _
  rw [Cert.Spec.ofBits_neg_inf, e]
  rfl

theorem pay8_at : k1_pay8 x0 x1 mi (ix2 r 0) = tmax x0 x1 mi r := by
  exact congrArg (max (mi (ix2 r 0))) ((shapeCast_a_a1_apply (rowMaxV x0 x1) _ r 0).trans (rowMaxV_at x0 x1 r))

theorem pay2_at (v : FVec Ideal S1024x1 .f32) : k1_pay2 v (ix2 r 0) = v (ix2 r 0) :=
  congrFun (shapeCast_self v _) _

theorem pay9_at : k1_pay9 x0 x1 mi (ix2 r 0) = Ideal.exp (mi (ix2 r 0) - tmax x0 x1 mi r) :=
  congrArg (fun z => Ideal.exp (mi (ix2 r 0) - z)) (pay8_at x0 x1 mi r)

theorem pay10_at (j : Fin 256) : k1_pay10 x0 x1 mi (ix2 r j) = Ideal.exp (tsc x0 x1 r j - tmax x0 x1 mi r) := by
  exact congrArg₂ (fun y z => Ideal.exp (y - z)) (pay7_at x0 x1 r j)
    ((broadcastTo_a1_ab_apply (k1_pay8 x0 x1 mi) _ r j).trans (pay8_at x0 x1 mi r))

def rowSumV : FVec Ideal S1024 .f32 :=
  multiReduction .add [1] S1024 (k1_pay10 x0 x1 mi) 0x00000000#32 Facts₀.reduces_S1024x256_S1024 (.inl rfl) rfl

theorem rowSumV_at : rowSumV x0 x1 mi (ix1 r) = ∑ j : Fin 256, Ideal.exp (tsc x0 x1 r j - tmax x0 x1 mi r) :=
  (Ideal.multiReduction_add_single _ _ _ _ _ (ix1 r)).trans
    (Finset.sum_congr rfl fun k _ => (congrArg (k1_pay10 x0 x1 mi) (lift_lane _ r k)).trans (pay10_at x0 x1 mi r _))

theorem pay11_at : k1_pay11 x0 x1 mi li (ix2 r 0)
    = Ideal.exp (mi (ix2 r 0) - tmax x0 x1 mi r) * li (ix2 r 0) + ∑ j : Fin 256, Ideal.exp (tsc x0 x1 r j - tmax x0 x1 mi r) := by
  simp only [k1_pay11, shapeCast_self]
  show k1_pay9 x0 x1 mi (ix2 r 0) * li (ix2 r 0) + shapeCast S1024x1 (rowSumV x0 x1 mi) _ (ix2 r 0) = _
  rw [shapeCast_a_a1_apply, pay9_at, rowSumV_at]

theorem pay12_at : k1_pay12 x0 x1 x2 mi (ix2 r d)
    = ∑ j : Fin 256, Ideal.exp (tsc x0 x1 r j - tmax x0 x1 mi r) * x2 (ix3 0 j d) := by
  refine (pv_at _ _ r d).trans (Finset.sum_congr rfl fun j _ => ?_)
  show k1_pay10 x0 x1 mi (ix2 r j) * _ = _
  rw [pay10_at, shapeCast_1ab_ab_apply]

theorem pay1_at : k1_pay1 (k1_pay9 x0 x1 mi) (k1_pay12 x0 x1 x2 mi) ai (ix2 r d)
    = Ideal.exp (mi (ix2 r 0) - tmax x0 x1 mi r) * ai (ix2 r d)
      + ∑ j : Fin 256, Ideal.exp (tsc x0 x1 r j - tmax x0 x1 mi r) * x2 (ix3 0 j d) := by
  simp only [k1_pay1, shapeCast_self]
  show broadcastTo S1024x1024 (k1_pay9 x0 x1 mi) _ (ix2 r d) * ai (ix2 r d) + k1_pay12 x0 x1 x2 mi (ix2 r d) = _
  rw [broadcastTo_a1_ab_apply, pay9_at, pay12_at]

end Body

section Last

variable (a : Vec Ideal S1024x1024 .f32) (l : Vec Ideal S1024x1 .f32) (x3 : Vec Ideal S1x1024x1024 .f32)
  (x4 : Vec Ideal S1x1x1024 .f32) (r d : Fin 1024)

theorem pay3_at : k1_pay3 a l x3 x4 (ix3 0 r d)
    = (1 * x3 (ix3 0 r d) + Ideal.div (a (ix2 r d)) (l (ix2 r 0))) - 2 * x4 (ix3 0 0 d) := by
  simp only [k1_pay3]
  rw [shapeCast_ab_1ab_apply]
  show (Ideal.ofBits .f32 0x3F800000#32 * shapeCast S1024x1024 x3 _ (ix2 r d) + Ideal.div (a (ix2 r d)) (broadcastTo S1024x1024 l _ (ix2 r d)))
    - broadcastTo S1024x1024 (mulf (broadcast S1x1024 (Scalar.ofBits (F := Ideal) .f32 0x40000000#32)) (shapeCast S1x1024 (shapeCast S1024 x4 _) _)) _ (ix2 r d) = _
  rw [broadcastTo_a1_ab_apply, broadcastTo_1b_ab_apply]
  show _ - Ideal.ofBits .f32 0x40000000#32 * shapeCast S1x1024 (shapeCast S1024 x4 _) _ (ix2 0 d) = _
  rw [shapeCast_1ab_ab_apply, shapeCast_a_1a_apply, shapeCast_11a_a_apply, Cert.Spec.ofBits_one, Cert.Spec.ofBits_two]

end Last

theorem pay4_at (r : Fin 1024) : k1_pay4 (F := Ideal) (ix2 r 0) = ⊥ := by
  simp only [k1_pay4, shapeCast_self]
  exact Cert.Spec.ofBits_neg_inf

theorem pay5_at (r : Fin 1024) : k1_pay5 (F := Ideal) (ix2 r 0) = 0 := by
  simp only [k1_pay5, shapeCast_self]
  exact Cert.Spec.ofBits_zero

theorem pay6_at (r d : Fin 1024) : k1_pay6 (F := Ideal) (ix2 r d) = 0 := by
  simp only [k1_pay6, shapeCast_self]
  exact Cert.Spec.ofBits_zero

end Cert.KernelIdeal.Hand

end
-- ==== Proof.R1Value.lean ====
import proofs.«401480_j41566693490738_3_alg».proof.Proof.R1Body
import proofs.«401480_j41566693490738_3_alg».proof.Proof.R1ValueA
import proofs.«401480_j41566693490738_3_alg».proof.Proof.R1Pay

noncomputable section

namespace Cert.KernelIdeal.Hand

open Cert.KernelIdeal Cert.KernelIdeal.Gen
open Idealize.ShloMosaic Idealize.ShloMosaic.TcCoe Idealize.ShloMosaic.ValueIdx
open scoped BigOperators

section R1Value

variable (V : (c : Dev nD) → (b : Ref sig .tc) → Buf (Elt Ideal) ((c : Thread nD τ).loc b))

abbrev arrQ1 (c : Dev nD) : FVec Ideal S4x2048x1024 .bf16 := V c main_v2_0
abbrev arrK1 (c : Dev nD) : FVec Ideal S4x2048x1024 .bf16 := V c main_v2_1
abbrev arrV1 (c : Dev nD) : FVec Ideal S4x2048x1024 .bf16 := V c main_v2_2
abbrev arrX1 (c : Dev nD) : FVec Ideal S4x2048x1024 .f32 := V c main_arg0
abbrev arrM1 (c : Dev nD) : FVec Ideal S4x1x1024 .f32 := V c main_v2_3

variable (c : Dev nD) (t : Fin cfg1.N)

abbrev blkQ1 : Vec Ideal S1x1024x1024 .bf16 := iblk1 V c 0 t
abbrev blkK1 : Vec Ideal S1x256x1024 .bf16 := iblk1 V c 1 t
abbrev blkV1 : Vec Ideal S1x256x1024 .bf16 := iblk1 V c 2 t
abbrev blkX1 : Vec Ideal S1x1024x1024 .f32 := iblk1 V c 3 t
abbrev blkM1 : Vec Ideal S1x1x1024 .f32 := iblk1 V c 4 t

abbrev sc1 (b : Fin 4) (s : Fin 2048) : Fin 2048 → EReal :=
  fun t => (∑ e : Fin 1024, arrQ1 V c (ix3 b s e) * arrK1 V c (ix3 b t e)) * (((1 / 32 : ℝ) : ℝ) : EReal)
abbrev xv1 (b : Fin 4) (d : Fin 1024) : Fin 2048 → EReal := fun t => arrV1 V c (ix3 b t d)

theorem idx1 : ∀ t : Fin cfg1.N,
    (win1_0.index t (0 : Fin 3) = t.val / 16 ∧ win1_0.index t (1 : Fin 3) = t.val / 8 % 2 ∧ win1_0.index t (2 : Fin 3) = 0) ∧
    (win1_1.index t (0 : Fin 3) = t.val / 16 ∧ win1_1.index t (1 : Fin 3) = t.val % 8 ∧ win1_1.index t (2 : Fin 3) = 0) ∧
    (win1_2.index t (0 : Fin 3) = t.val / 16 ∧ win1_2.index t (1 : Fin 3) = t.val % 8 ∧ win1_2.index t (2 : Fin 3) = 0) ∧
    (win1_3.index t (0 : Fin 3) = t.val / 16 ∧ win1_3.index t (1 : Fin 3) = t.val / 8 % 2 ∧ win1_3.index t (2 : Fin 3) = 0) ∧
    (win1_4.index t (0 : Fin 3) = t.val / 16 ∧ win1_4.index t (1 : Fin 3) = 0 ∧ win1_4.index t (2 : Fin 3) = 0) ∧
    win1_5.index t (0 : Fin 3) = t.val / 16 ∧ win1_5.index t (1 : Fin 3) = t.val / 8 % 2 ∧ win1_5.index t (2 : Fin 3) = 0 :=
  (by decide +kernel : ∀ t : Fin grid1.N, _)

theorem ix3_eq {n0 n1 n2 : ℕ} {i : (⟨3, ![n0, n1, n2]⟩ : Shape).Idx} {a : Fin n0} {b : Fin n1} {c : Fin n2}
    (h0 : (i 0).val = a.val) (h1 : (i 1).val = b.val) (h2 : (i 2).val = c.val) : i = ix3 a b c :=
  funext fun k => Fin.ext (by
    match k with
    | ⟨0, _⟩ => exact h0
    | ⟨1, _⟩ => exact h1
    | ⟨2, _⟩ => exact h2)

theorem blkQ1_at (r e : Fin 1024) (b : Fin 4) (s : Fin 2048)
    (hb : b.val = t.val / 16) (hs : s.val = 1024 * (t.val / 8 % 2) + r.val) :
    blkQ1 V c t (ix3 (0 : Fin 1) r e) = arrQ1 V c (ix3 b s e) := by
  have := (idx1 t).1
  exact congrArg (V c main_v2_0) (ix3_eq (show win1_0.index t (0 : Fin 3) * 1 + 1 * (0 : ℕ) = _ by omega)
    (show win1_0.index t (1 : Fin 3) * 1024 + 1 * r.val = _ by omega) (show win1_0.index t (2 : Fin 3) * 1024 + 1 * e.val = _ by omega))

theorem blkK1_at (j : Fin 256) (e : Fin 1024) (b : Fin 4) (p : Fin 2048)
    (hb : b.val = t.val / 16) (hp : p.val = 256 * (t.val % 8) + j.val) :
    blkK1 V c t (ix3 (0 : Fin 1) j e) = arrK1 V c (ix3 b p e) := by
  have := (idx1 t).2.1
  exact congrArg (V c main_v2_1) (ix3_eq (show win1_1.index t (0 : Fin 3) * 1 + 1 * (0 : ℕ) = _ by omega)
    (show win1_1.index t (1 : Fin 3) * 256 + 1 * j.val = _ by omega) (show win1_1.index t (2 : Fin 3) * 1024 + 1 * e.val = _ by omega))

theorem blkV1_at (j : Fin 256) (e : Fin 1024) (b : Fin 4) (p : Fin 2048)
    (hb : b.val = t.val / 16) (hp : p.val = 256 * (t.val % 8) + j.val) :
    blkV1 V c t (ix3 (0 : Fin 1) j e) = arrV1 V c (ix3 b p e) := by
  have := (idx1 t).2.2.1
  exact congrArg (V c main_v2_2) (ix3_eq (show win1_2.index t (0 : Fin 3) * 1 + 1 * (0 : ℕ) = _ by omega)
    (show win1_2.index t (1 : Fin 3) * 256 + 1 * j.val = _ by omega) (show win1_2.index t (2 : Fin 3) * 1024 + 1 * e.val = _ by omega))

theorem blkX1_at (r e : Fin 1024) (b : Fin 4) (s : Fin 2048)
    (hb : b.val = t.val / 16) (hs : s.val = 1024 * (t.val / 8 % 2) + r.val) :
    blkX1 V c t (ix3 (0 : Fin 1) r e) = arrX1 V c (ix3 b s e) := by
  have := (idx1 t).2.2.2.1
  exact congrArg (V c main_arg0) (ix3_eq (show win1_3.index t (0 : Fin 3) * 1 + 1 * (0 : ℕ) = _ by omega)
    (show win1_3.index t (1 : Fin 3) * 1024 + 1 * r.val = _ by omega) (show win1_3.index t (2 : Fin 3) * 1024 + 1 * e.val = _ by omega))

theorem blkM1_at (e : Fin 1024) (b : Fin 4) (hb : b.val = t.val / 16) :
    blkM1 V c t (ix3 (0 : Fin 1) (0 : Fin 1) e) = arrM1 V c (ix3 b (0 : Fin 1) e) := by
  have := (idx1 t).2.2.2.2.1
  exact congrArg (V c main_v2_3) (ix3_eq (show win1_4.index t (0 : Fin 3) * 1 + 1 * (0 : ℕ) = _ by omega)
    (show win1_4.index t (1 : Fin 3) * 1 + 1 * (0 : ℕ) = _ by omega) (show win1_4.index t (2 : Fin 3) * 1024 + 1 * e.val = _ by omega))

/-- One key tile folds into the running maximum, normaliser and weighted sum of row `r`, column `d`. -/
theorem r1_step (x0 : Vec Ideal S1x1024x1024 .bf16) (x1 x2 : Vec Ideal S1x256x1024 .bf16) (mi li : Vec Ideal S1024x1 .f32)
    (ai : Vec Ideal S1024x1024 .f32) (sc xv : Fin 2048 → EReal) (ki : ℕ) (r d : Fin 1024)
    (hsc : tsc x0 x1 r = Cert.Spec.tileAt sc ki) (hxv : ∀ j : Fin 256, x2 (ix3 (0 : Fin 1) j d) = Cert.Spec.tileAt xv ki j)
    (h : (mi (ix2 r 0), li (ix2 r 0), ai (ix2 r d)) = Cert.Spec.stats sc xv ki) :
    (k1_pay2 (k1_pay8 x0 x1 mi) (ix2 r 0), k1_pay11 x0 x1 mi li (ix2 r 0),
      k1_pay1 (k1_pay9 x0 x1 mi) (k1_pay12 x0 x1 x2 mi) ai (ix2 r d)) = Cert.Spec.stats sc xv (ki + 1) := by
  rw [pay2_at, pay8_at, pay11_at, pay1_at, Cert.Spec.stats_succ, ← h]
  unfold tmax
  rw [hsc]
  simp only [hxv]

theorem r1_pt (r d : Fin 1024) (b : Fin 4) (s : Fin 2048)
    (hb : b.val = t.val / 16) (hs : s.val = 1024 * (t.val / 8 % 2) + r.val)
    (mi li : Vec Ideal S1024x1 .f32) (ai : Vec Ideal S1024x1024 .f32)
    (h : (mi (ix2 r 0), li (ix2 r 0), ai (ix2 r d)) = Cert.Spec.stats (sc1 V c b s) (xv1 V c b d) (t.val % 8)) :
    (k1_pay2 (k1_pay8 (blkQ1 V c t) (blkK1 V c t) mi) (ix2 r 0), k1_pay11 (blkQ1 V c t) (blkK1 V c t) mi li (ix2 r 0),
      k1_pay1 (k1_pay9 (blkQ1 V c t) (blkK1 V c t) mi) (k1_pay12 (blkQ1 V c t) (blkK1 V c t) (blkV1 V c t) mi) ai (ix2 r d))
      = Cert.Spec.stats (sc1 V c b s) (xv1 V c b d) (t.val % 8 + 1) := by
  have hj : ∀ j : Fin 256, 256 * (t.val % 8) + j.val < 2048 := fun j => by have := j.isLt; omega
  refine r1_step _ _ _ _ _ _ _ _ _ r d (funext fun j => ?_) (fun j => ?_) h
  · unfold tsc Cert.Spec.tileAt
    rw [dif_pos (hj j)]
    refine congrArg (· * (((1 / 32 : ℝ) : ℝ) : EReal)) (Finset.sum_congr rfl fun e _ => ?_)
    rw [blkQ1_at V c t r e b s hb hs, blkK1_at V c t j e b ⟨_, hj j⟩ hb rfl]
  · unfold Cert.Spec.tileAt
    rw [dif_pos (hj j)]
    exact blkV1_at V c t j d b ⟨_, hj j⟩ hb rfl

theorem r1_inv (r d : Fin 1024) (n : ℕ) : ∀ (hn : n < cfg1.N) (b : Fin 4) (s : Fin 2048),
    b.val = n / 16 → s.val = 1024 * (n / 8 % 2) + r.val →
      ((outsAt1 V c n hn).m (ix2 r 0), (outsAt1 V c n hn).l (ix2 r 0), (outsAt1 V c n hn).acc (ix2 r d))
        = Cert.Spec.stats (sc1 V c b s) (xv1 V c b d) (n % 8 + 1) := by
  induction n using Nat.strong_induction_on with
  | _ n ih =>
    intro hn b s hb hs
    obtain ⟨t, rfl⟩ : ∃ t : Fin cfg1.N, t.val = n := ⟨⟨n, hn⟩, rfl⟩
    have e0 := hcond1_0 t
    have e1 := hcond1_1 t
    by_cases h0 : t.val % 8 = 0
    · rw [outsAt1_A V c t h0 (e0.mpr h0) fun h => by have := e1.mp h; omega]
      unfold ptA1
      dsimp only
      rw [sout1_A_0_eq, sout1_A_1_eq, sout1_A_2_eq]
      exact r1_pt V c t r d b s hb hs _ _ _ (by rw [h0, pay4_at, pay5_at, pay6_at]; rfl)
    · have hp := ih (t.val - 1) (by omega) (by omega) b s (by omega) (by omega)
      rw [show (t.val - 1) % 8 + 1 = t.val % 8 by omega] at hp
      by_cases h7 : t.val % 8 = 7
      · rw [outsAt1_C V c t h0 h7 (fun h => h0 (e0.mp h)) (e1.mpr h7)]
        unfold ptC1
        dsimp only
        rw [sout1_C_0_eq, sout1_C_1_eq, sout1_C_2_eq]
        exact r1_pt V c t r d b s hb hs _ _ _ hp
      · rw [outsAt1_B V c t h0 h7 (fun h => h0 (e0.mp h)) fun h => h7 (e1.mp h)]
        unfold ptB1
        dsimp only
        rw [sout1_B_0_eq, sout1_B_1_eq, sout1_B_2_eq]
        exact r1_pt V c t r d b s hb hs _ _ _ hp

def outG1 : FVec Ideal S4x2048x1024 .f32 := fun i =>
  Cert.Spec.kerRow (sc1 V c (i 0) (i 1)) (xv1 V c (i 0) (i 2)) (arrX1 V c i) (arrM1 V c (ix3 (i 0) (0 : Fin 1) (i 2)))

theorem r1_out_at (h7 : t.val % 8 = 7) (r d : Fin 1024) (b : Fin 4) (s : Fin 2048)
    (hb : b.val = t.val / 16) (hs : s.val = 1024 * (t.val / 8 % 2) + r.val) :
    (outsAt1 V c t.val t.isLt).o (ix3 (0 : Fin 1) r d)
      = Cert.Spec.kerRow (sc1 V c b s) (xv1 V c b d) (arrX1 V c (ix3 b s d)) (arrM1 V c (ix3 b (0 : Fin 1) d)) := by
  have h0 : ¬t.val % 8 = 0 := by omega
  have hc0 : ¬cond1_0 (grid1.coords t) := fun h => h0 ((hcond1_0 t).mp h)
  have hc1 : cond1_1 (grid1.coords t) := (hcond1_1 t).mpr h7
  have hi := r1_inv V c r d t.val t.isLt b s hb hs
  rw [h7] at hi
  simp only [Prod.ext_iff] at hi
  have e : (outsAt1 V c t.val t.isLt).o
      = k1_pay3 (outsAt1 V c t.val t.isLt).acc (outsAt1 V c t.val t.isLt).l (blkX1 V c t) (blkM1 V c t) := by
    rw [outsAt1_C V c t h0 h7 hc0 hc1]
    unfold ptC1
    dsimp only
    rw [out1_C_5_eq, sout1_C_2_eq, sout1_C_1_eq]
  rw [e, pay3_at, hi.2.1, hi.2.2, blkX1_at V c t r d b s hb hs, blkM1_at V c t d b hb]
  rfl

theorem r1_mem (b : Fin 4) (s : Fin 2048) (d : Fin 1024) (hb : b.val = t.val / 16)
    (hs : s.val / 1024 = t.val / 8 % 2) : (ix3 b s d : S4x2048x1024.Idx) ∈ ((cfg1.win 5).blk t).view.set := by
  have := (idx1 t).2.2.2.2.2
  have hs' : s.val < 2048 := s.isLt
  have hd' : d.val < 1024 := d.isLt
  show (ix3 b s d : S4x2048x1024.Idx) ∈ ((View.whole main_v3).slice (win1_5.rect t)).set
  rw [View.set_slice_whole, Rect.mem_set_unit]
  intro a
  match a with
  | ⟨0, _⟩ => show win1_5.index t (0 : Fin 3) * 1 ≤ b.val ∧ b.val < win1_5.index t (0 : Fin 3) * 1 + 1; omega
  | ⟨1, _⟩ => show win1_5.index t (1 : Fin 3) * 1024 ≤ s.val ∧ s.val < win1_5.index t (1 : Fin 3) * 1024 + 1024; omega
  | ⟨2, _⟩ => show win1_5.index t (2 : Fin 3) * 1024 ≤ d.val ∧ d.val < win1_5.index t (2 : Fin 3) * 1024 + 1024; omega

theorem r1_flushed (hf : (cfg1.win 5).flush t = true) :
    (dat1 V c).flushed 5 t = ((cfg1.win 5).blk t).view.read (Elt Ideal) (outG1 V c) := by
  have h7 : t.val % 8 = 7 := (flush1_5 t).mp hf
  have hN : t.val < 64 := lt_of_lt_of_eq t.isLt N_1
  have := (idx1 t).2.2.2.2.2
  show (cfg1.win 5).cut (grid1.coords t) ((dat1 V c).after 5 t) = _
  rw [after1_5]
  funext y
  obtain ⟨u, r, d, rfl⟩ : ∃ (u : Fin 1) (r d : Fin 1024), y = ix3 u r d := ⟨y 0, y 1, y 2, eq_ix3 y⟩
  obtain rfl : u = 0 := Subsingleton.elim _ _
  have hr : r.val < 1024 := r.isLt
  have hemb : ((cfg1.win 5).blk t).view.emb (ix3 (0 : Fin 1) r d)
      = ix3 (⟨t.val / 16, by omega⟩ : Fin 4) (⟨1024 * (t.val / 8 % 2) + r.val, by omega⟩ : Fin 2048) d :=
    ix3_eq (show win1_5.index t (0 : Fin 3) * 1 + 1 * (0 : ℕ) = t.val / 16 by omega)
      (show win1_5.index t (1 : Fin 3) * 1024 + 1 * r.val = 1024 * (t.val / 8 % 2) + r.val by omega) (show win1_5.index t (2 : Fin 3) * 1024 + 1 * d.val = d.val by omega)
  show (outsAt1 V c t.val t.isLt).o (ix3 (0 : Fin 1) r d) = outG1 V c (((cfg1.win 5).blk t).view.emb (ix3 (0 : Fin 1) r d))
  rw [hemb]
  exact r1_out_at V c t h7 r d _ _ rfl rfl

end R1Value

theorem r1_out (V : (c : Dev nD) → (b : Ref sig .tc) → Buf (Elt Ideal) ((c : Thread nD τ).loc b)) (c : Dev nD) (b : Fin 4) (s : Fin 2048) (d : Fin 1024) :
    (dat1 (F := Ideal) V c).arrAt 5 cfg1.N (ix3 b s d)
      = Cert.Spec.kerRow (fun t => (∑ e : Fin 1024, arrQ1 V c (ix3 b s e) * arrK1 V c (ix3 b t e)) * (((1 / 32 : ℝ) : ℝ) : EReal))
          (fun t => arrV1 V c (ix3 b t d)) (arrX1 V c (ix3 b s d)) (arrM1 V c (ix3 b (0 : Fin 1) d)) := by
  have hb : b.val < 4 := b.isLt
  have hs : s.val < 2048 := s.isLt
  have hN : cfg1.N = 64 := N_1
  obtain ⟨n, hn⟩ : ∃ n : ℕ, n = 16 * b.val + 8 * (s.val / 1024) + 7 := ⟨_, rfl⟩
  have hlt : n < cfg1.N := by rw [hN]; omega
  have h7 : (⟨n, hlt⟩ : Fin cfg1.N).val % 8 = 7 := by show n % 8 = 7; omega
  have hf : (cfg1.win 5).flush ⟨n, hlt⟩ = true := (flush1_5 ⟨n, hlt⟩).mpr h7
  have hmem := r1_mem ⟨n, hlt⟩ b s d (by show b.val = n / 16; omega) (by show s.val / 1024 = n / 8 % 2; omega)
  exact ((dat1 V c).arrAt_apply_of_mem 5 (outG1 V c) (fun t hf => r1_flushed V c t hf) cfg1.N ⟨n, hlt⟩ (ix3 b s d) hlt hf hmem).trans rfl

end Cert.KernelIdeal.Hand

end
-- ==== Proof.KernelValue.lean ====
import proofs.«401480_j41566693490738_3_alg».proof.Proof.Whole
import proofs.«401480_j41566693490738_3_alg».proof.Proof.R0Value
import proofs.«401480_j41566693490738_3_alg».proof.Proof.R1Value
import proofs.«401480_j41566693490738_3_alg».proof.Proof.Spec
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

theorem V1_arg0 (c : Dev nD) : V1 m c main_arg0 = m ((c : Thread nD τ).loc main_arg0) := W1_of_ne m c main_arg0 (by decide) (by decide)
theorem V1_arg2 (c : Dev nD) : V1 m c main_arg2 = m ((c : Thread nD τ).loc main_arg2) := W1_of_ne m c main_arg2 (by decide) (by decide)
theorem V1_arg4 (c : Dev nD) : V1 m c main_arg4 = m ((c : Thread nD τ).loc main_arg4) := W1_of_ne m c main_arg4 (by decide) (by decide)

theorem V1_v0 (c : Dev nD) : V1 m c main_v0 = m ((c : Thread nD τ).loc main_arg1) := by
  have e : V1 m c main_v0 = (truncf (F := Ideal) (s := S1024x1024) (φ := .f32) .bf16 (m ((c : Thread nD τ).loc main_arg1)) bitsLt_bf16_f32 : FVec Ideal S1024x1024 .bf16) := by
    show StableHlo.after hostOps0 (W0 m c) (Proc.devRef .tc main_v0) = _
    simp only [hostOps0]
    after_results
  rw [e]; rfl

theorem V1_v1 (c : Dev nD) : V1 m c main_v1 = m ((c : Thread nD τ).loc main_arg3) := by
  have e : V1 m c main_v1 = (truncf (F := Ideal) (s := S1024x1024) (φ := .f32) .bf16 (m ((c : Thread nD τ).loc main_arg3)) bitsLt_bf16_f32 : FVec Ideal S1024x1024 .bf16) := by
    show StableHlo.after hostOps0 (W0 m c) (Proc.devRef .tc main_v1) = _
    simp only [hostOps0]
    after_results
  rw [e]; rfl

theorem V2_q (c : Dev nD) : V2 m c main_v2_0 = (dat0 (V1 m) c).arrAt 5 cfg0.N := W2_arr m c 5
theorem V2_k (c : Dev nD) : V2 m c main_v2_1 = (dat0 (V1 m) c).arrAt 6 cfg0.N := W2_arr m c 6
theorem V2_xb (c : Dev nD) : V2 m c main_v2_2 = (dat0 (V1 m) c).arrAt 7 cfg0.N := W2_arr m c 7
theorem V2_mean (c : Dev nD) : V2 m c main_v2_3 = (dat0 (V1 m) c).arrAt 8 cfg0.N := W2_arr m c 8
theorem V2_arg0 (c : Dev nD) : V2 m c main_arg0 = m ((c : Thread nD τ).loc main_arg0) :=
  (W2_arr m c 0).trans ((((dat0 (V1 m) c).arrAt_in 0 rfl _).trans (A_eq0 (V1 m) c 0)).trans (V1_arg0 m c))

theorem kernel_value (c : Dev nD) (b : Fin 4) (s : Fin 2048) (d : Fin 1024) :
    (dat1 (F := Ideal) (V2 m) c).arrAt 5 cfg1.N (ix3 b s d)
      = Cert.Spec.kerOut (m ((c : Thread nD τ).loc main_arg0)) (m ((c : Thread nD τ).loc main_arg1)) (m ((c : Thread nD τ).loc main_arg2))
          (m ((c : Thread nD τ).loc main_arg3)) (m ((c : Thread nD τ).loc main_arg4)) b s d := by
  rw [r1_out (V2 m) c b s d]
  have hq : ∀ (s' : Fin 2048) (e : Fin 1024), arrQ1 (V2 m) c (ix3 b s' e)
      = Cert.Spec.proj (m ((c : Thread nD τ).loc main_arg0)) (m ((c : Thread nD τ).loc main_arg1)) (m ((c : Thread nD τ).loc main_arg2)) b s' e := fun s' e => by
    show V2 m c main_v2_0 (ix3 b s' e) = _
    rw [V2_q, r0_q (V1 m) c b s' e, V1_arg0, V1_v0, V1_arg2]
  have hk : ∀ (t : Fin 2048) (e : Fin 1024), arrK1 (V2 m) c (ix3 b t e)
      = Cert.Spec.proj (m ((c : Thread nD τ).loc main_arg0)) (m ((c : Thread nD τ).loc main_arg3)) (m ((c : Thread nD τ).loc main_arg4)) b t e := fun t e => by
    show V2 m c main_v2_1 (ix3 b t e) = _
    rw [V2_k, r0_k (V1 m) c b t e, V1_arg0, V1_v1, V1_arg4]
  have hv : ∀ (t : Fin 2048), arrV1 (V2 m) c (ix3 b t d) = m ((c : Thread nD τ).loc main_arg0) (ix3 b t d) := fun t => by
    show V2 m c main_v2_2 (ix3 b t d) = _
    rw [V2_xb, r0_xb (V1 m) c b t d, V1_arg0]
  have hmean : arrM1 (V2 m) c (ix3 b (0 : Fin 1) d) = Cert.Spec.meanOf (fun t => m ((c : Thread nD τ).loc main_arg0) (ix3 b t d)) := by
    show V2 m c main_v2_3 (ix3 b (0 : Fin 1) d) = _
    rw [V2_mean, r0_mean (V1 m) c b d, V1_arg0]
  have hx : arrX1 (V2 m) c (ix3 b s d) = m ((c : Thread nD τ).loc main_arg0) (ix3 b s d) := by
    show V2 m c main_arg0 (ix3 b s d) = _
    rw [V2_arg0]
  unfold Cert.Spec.kerOut Cert.Spec.kerScore Cert.Spec.rawScore
  simp only [hq, hk, hv, hmean, hx]

end Cert.KernelIdeal.Hand

end
-- ==== Proof.RefValue.lean ====
import proofs.«401480_j41566693490738_3_alg».proof.Proof.Gen.ReferenceIdeal.Read
import proofs.«401480_j41566693490738_3_alg».proof.Proof.Spec
import Idealize.ShloMosaic.PureOps.Ideal.Laws
import Idealize.ShloMosaic.PureOps.Reduce

namespace Cert.RefValue

open Cert.ReferenceIdeal Cert.ReferenceIdeal.Gen Cert.ReferenceIdeal.Read Idealize.ShloMosaic Idealize.ShloMosaic.ValueIdx

variable (x0 : (⟨S4x2048x1024, .f32⟩ : BufTy).Contents (Elt Ideal)) (x1 : (⟨S1024x1024, .f32⟩ : BufTy).Contents (Elt Ideal))
  (x2 : (⟨S1024, .f32⟩ : BufTy).Contents (Elt Ideal)) (x3 : (⟨S1024x1024, .f32⟩ : BufTy).Contents (Elt Ideal))
  (x4 : (⟨S1024, .f32⟩ : BufTy).Contents (Elt Ideal)) (b : Fin 4) (s t : Fin 2048) (d e : Fin 1024)

theorem lidx0 (k : Fin 1024) : lidx_main_v0 (ix3 b s e) k = ix3 b s k := eq_ix3 _
theorem ridx0 (k : Fin 1024) : ridx_main_v0 (ix3 b s e) k = ix2 e k := eq_ix2 _
theorem bidx0 : idx_main_v1 (idx_main_v2 (ix3 b s e)) = ix1 e := eq_ix1 _

theorem q_at :
    val_main_v3 (F := Ideal) x0 x1 x2 (ix3 b s e) = Cert.Spec.proj x0 x1 x2 b s e := by
  rw [val_main_v3_apply, val_main_v0_apply, val_main_v2_apply, val_main_v1_apply, bidx0]
  simp only [lidx0, ridx0]
  rfl

theorem lidx4 (k : Fin 1024) : lidx_main_v4 (ix3 b s e) k = ix3 b s k := eq_ix3 _
theorem ridx4 (k : Fin 1024) : ridx_main_v4 (ix3 b s e) k = ix2 e k := eq_ix2 _
theorem bidx4 : idx_main_v5 (idx_main_v6 (ix3 b s e)) = ix1 e := eq_ix1 _

theorem k_at :
    val_main_v7 (F := Ideal) x0 x3 x4 (ix3 b t e) = Cert.Spec.proj x0 x3 x4 b t e := by
  rw [val_main_v7_apply, val_main_v4_apply, val_main_v6_apply, val_main_v5_apply, bidx4]
  simp only [lidx4, ridx4]
  rfl

theorem lidx8 (k : Fin 1024) : lidx_main_v8 (ix3 b s t) k = ix3 b s k := eq_ix3 _
theorem ridx8 (k : Fin 1024) : ridx_main_v8 (ix3 b s t) k = ix3 b t k := eq_ix3 _

theorem score_at :
    val_main_v10 (F := Ideal) x0 x1 x2 x3 x4 (ix3 b s t) = Cert.Spec.refScore x0 x1 x2 x3 x4 b s t := by
  rw [val_main_v10_apply, val_main_v8_apply, val_main_v9_apply, val_main_cst_apply, Ideal.hostDivf_def, Ideal.ofBits_def,
    Cert.Spec.ofBits_32]
  simp only [lidx8, ridx8, q_at, k_at]
  rfl

theorem red_S : S4x2048x2048.Reduces [2] S4x2048 := by decide

theorem lift_eq : red_S.lift (ix2 b s) t = ix3 b s t := eq_ix3 _

theorem max_at :
    val_main_v13 (F := Ideal) x0 x1 x2 x3 x4 (ix2 b s)
      = Cert.Spec.rowMax (fun t => Cert.Spec.refScore x0 x1 x2 x3 x4 b s t) := by
  rw [val_main_v13_apply, val_main_v12_apply, val_main_cst_1_apply, Ideal.maximumf_def, Ideal.ofBits_def,
    Cert.Spec.ofBits_neg_inf]
  unfold val_main_v11
  rw [Host.reduce_eq_fold_single FloatOps.maximumf _ _ reducesTo_S4x2048x2048_S4x2048_d2 red_S h_S_,
    val_main_cst_0_apply, Ideal.ofBits_def, Cert.Spec.ofBits_neg_inf]
  have e : (val_main_v10 (F := Ideal) x0 x1 x2 x3 x4 ∘ red_S.lift (ix2 b s))
      = fun t : Fin 2048 => Cert.Spec.refScore x0 x1 x2 x3 x4 b s t :=
    funext fun t => (congrArg _ (lift_eq b s t)).trans (score_at x0 x1 x2 x3 x4 b s t)
  rw [e]
  rfl

theorem idx15 : idx_main_v14 (idx_main_v15 (ix3 b s t)) = ix2 b s := eq_ix2 _

theorem exp_at :
    val_main_v17 (F := Ideal) x0 x1 x2 x3 x4 (ix3 b s t)
      = Ideal.exp (Cert.Spec.refScore x0 x1 x2 x3 x4 b s t
          - Cert.Spec.rowMax (fun t' => Cert.Spec.refScore x0 x1 x2 x3 x4 b s t')) := by
  rw [val_main_v17_apply, val_main_v16_apply, val_main_v15_apply, val_main_v14_apply, idx15, max_at, score_at,
    Ideal.hostUnary_exp_def, Ideal.subf_def]

theorem idx18 (k : Fin 2048) : idx_main_v18 (ix2 b s) k = ix3 b s k := eq_ix3 _

theorem idx20 : idx_main_v19 (idx_main_v20 (ix3 b s t)) = ix2 b s := eq_ix2 _

theorem soft_at :
    val_main_v21 (F := Ideal) x0 x1 x2 x3 x4 (ix3 b s t)
      = Cert.Spec.soft (fun t' => Cert.Spec.refScore x0 x1 x2 x3 x4 b s t') t := by
  rw [val_main_v21_apply, val_main_v20_apply, val_main_v19_apply, idx20, val_main_v18_apply, val_main_cst_2_apply,
    Ideal.ofBits_def, Cert.Spec.ofBits_zero, zero_add, Ideal.hostDivf_def]
  simp only [idx18, exp_at]
  rfl

theorem idx31 : idx_main_v28 (idx_main_v31 (ix3 b s t)) = ix2 s t := eq_ix2 _

theorem eye_bit :
    (FloatOps.uitofp (F := Ideal) .f32
        (IntOp.cmpi .eq (IntOp.addi (BitVec.ofNat 32 s.val) 0#32) (BitVec.ofNat 32 t.val)) : EReal)
      = Cert.Spec.eye s t := by
  have hb : (BitVec.ofNat 32 s.val == BitVec.ofNat 32 t.val) = decide (s = t) := by
    by_cases h : s = t
    · subst h; simp
    · rw [decide_eq_false h, beq_eq_false_iff_ne]
      intro e
      have e' := congrArg BitVec.toNat e
      simp only [BitVec.toNat_ofNat] at e'
      exact h (Fin.ext (by have := s.isLt; have := t.isLt; omega))
  unfold IntOp.cmpi IntOp.addi Cert.Spec.eye
  rw [BitVec.add_zero, hb]
  by_cases h : s = t
  · rw [if_pos h, decide_eq_true h]
    show (((1#1 : BitVec 1).toNat : ℝ) : EReal) = 1
    simp
  · rw [if_neg h, decide_eq_false h]
    show (((0#1 : BitVec 1).toNat : ℝ) : EReal) = 0
    simp

theorem blend_at :
    val_main_v32 (F := Ideal) x0 x1 x2 x3 x4 (ix3 b s t)
      = Cert.Spec.blend (fun t' => Cert.Spec.refScore x0 x1 x2 x3 x4 b s t') s t := by
  rw [val_main_v32_apply, soft_at, val_main_v31_apply, val_main_v30_apply, val_main_v29_apply, val_main_cst_3_apply,
    val_main_v28_apply, idx31, val_main_v27_apply, val_main_v26_apply, val_main_v25_apply, val_main_v22_apply,
    val_main_v24_apply, val_main_c_apply, val_main_v23_apply, Ideal.addf_def, Ideal.mulf_def, Ideal.ofBits_def,
    Cert.Spec.ofBits_one]
  exact congrArg (1 * · + _) (eye_bit s t)

theorem idx33 (k : Fin 2048) : idx_main_v33 (ix2 b s) k = ix3 b s k := eq_ix3 _

theorem idx39 : idx_main_v34 (idx_main_v39 (ix3 b s t)) = ix2 b s := eq_ix2 _

theorem centred_at :
    val_main_v40 (F := Ideal) x0 x1 x2 x3 x4 (ix3 b s t)
      = Cert.Spec.blend (fun t' => Cert.Spec.refScore x0 x1 x2 x3 x4 b s t') s t
        - 1 * Ideal.div (∑ t' : Fin 2048, Cert.Spec.blend (fun t'' => Cert.Spec.refScore x0 x1 x2 x3 x4 b s t'') s t')
            (((2048 : ℝ) : ℝ) : EReal) := by
  rw [val_main_v40_apply, val_main_v39_apply, val_main_v38_apply, val_main_v37_apply, val_main_cst_6_apply,
    val_main_v36_apply, val_main_v35_apply, val_main_cst_5_apply, val_main_v34_apply, idx39, val_main_v33_apply,
    val_main_cst_4_apply, Ideal.subf_def, Ideal.mulf_def, Ideal.hostDivf_def, Ideal.ofBits_def, Ideal.ofBits_def,
    Ideal.ofBits_def, Cert.Spec.ofBits_one, Cert.Spec.ofBits_2048, Cert.Spec.ofBits_zero, zero_add]
  simp only [idx33, blend_at]

theorem lidx41 (k : Fin 2048) : lidx_main_v41 (ix3 b s d) k = ix3 b s k := eq_ix3 _
theorem ridx41 (k : Fin 2048) : ridx_main_v41 (ix3 b s d) k = ix3 b k d := eq_ix3 _

theorem result_at (x0 : (⟨Cert.ReferenceIdeal.S4x2048x1024, .f32⟩ : BufTy).Contents (Elt Ideal)) (x1 : (⟨Cert.ReferenceIdeal.S1024x1024, .f32⟩ : BufTy).Contents (Elt Ideal)) (x2 : (⟨Cert.ReferenceIdeal.S1024, .f32⟩ : BufTy).Contents (Elt Ideal)) (x3 : (⟨Cert.ReferenceIdeal.S1024x1024, .f32⟩ : BufTy).Contents (Elt Ideal)) (x4 : (⟨Cert.ReferenceIdeal.S1024, .f32⟩ : BufTy).Contents (Elt Ideal)) (b : Fin 4) (s : Fin 2048) (d : Fin 1024) :
    Cert.ReferenceIdeal.Read.val_main_v41 (F := Ideal) x0 x1 x2 x3 x4 (ValueIdx.ix3 b s d) = Cert.Spec.refOut x0 x1 x2 x3 x4 b s d := by
  rw [val_main_v41_apply]
  simp only [lidx41, ridx41, centred_at]
  rfl

end Cert.RefValue
-- ==== Proof.LibOnlineSoftmax.lean ====
import Mathlib.Analysis.SpecialFunctions.Exp
import Mathlib.Data.EReal.Inv
import Idealize.ShloMosaic.PureOps.Ideal

open scoped BigOperators

namespace Cert.LibOnlineSoftmax

open Idealize.ShloMosaic

variable {ι : Type*}

theorem exp_shift_mul (x m m' : ℝ) : Real.exp (m - m') * Real.exp (x - m) = Real.exp (x - m') := by
  rw [← Real.exp_add]; congr 1; ring

theorem sum_exp_pos (x : ι → ℝ) (s : Finset ι) (hs : s.Nonempty) (m : ℝ) :
    0 < ∑ q ∈ s, Real.exp (x q - m) :=
  Finset.sum_pos (fun q _ => Real.exp_pos _) hs

/-- A softmax weight does not depend on the shift: both exponentials scale by the same positive factor. -/
theorem softmax_shift (x : ι → ℝ) (s : Finset ι) (m M : ℝ) (p : ι) :
    Real.exp (x p - m) / ∑ q ∈ s, Real.exp (x q - m) = Real.exp (x p - M) / ∑ q ∈ s, Real.exp (x q - M) := by
  have h : ∀ q, Real.exp (x q - m) = Real.exp (M - m) * Real.exp (x q - M) := fun q =>
    (exp_shift_mul (x q) M m).symm
  rw [h p, Finset.sum_congr rfl (fun q _ => h q), ← Finset.mul_sum,
    mul_div_mul_left _ _ (Real.exp_pos (M - m)).ne']

theorem coe_finset_sum (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem coe_max (a b : ℝ) : ((max a b : ℝ) : EReal) = max (a : EReal) (b : EReal) :=
  EReal.coe_strictMono.monotone.map_max

/-- The maximum of finitely many reals, taken in the extended reals from ⊥, is attained, hence real. -/
theorem exists_fold_max_bot_coe (s : Finset ι) (hs : s.Nonempty) (f : ι → ℝ) :
    ∃ c : ℝ, s.fold max ⊥ (fun i => (f i : EReal)) = (c : EReal) :=
  let ⟨i, _, h⟩ := Finset.exists_mem_eq_sup s hs (fun i => (f i : EReal)); ⟨f i, h⟩

theorem ideal_exp_sub_coe (a b : ℝ) : Ideal.exp ((a : EReal) - (b : EReal)) = ((Real.exp (a - b) : ℝ) : EReal) := by
  rw [← EReal.coe_sub, Ideal.exp_coe]

theorem ideal_div_coe (a b : ℝ) (hb : b ≠ 0) : Ideal.div (a : EReal) (b : EReal) = ((a / b : ℝ) : EReal) := by
  rw [Ideal.div_coe hb, ← EReal.coe_mul, mul_one_div]

theorem sum_ideal_exp_sub_coe (x : ι → ℝ) (s : Finset ι) (m : ℝ) :
    ∑ q ∈ s, Ideal.exp ((x q : EReal) - (m : EReal)) = ((∑ q ∈ s, Real.exp (x q - m) : ℝ) : EReal) := by
  rw [coe_finset_sum]; exact Finset.sum_congr rfl (fun q _ => ideal_exp_sub_coe (x q) m)

end Cert.LibOnlineSoftmax
-- ==== Proof.FlashMath.lean ====
import proofs.«401480_j41566693490738_3_alg».proof.Proof.Spec
import proofs.«401480_j41566693490738_3_alg».proof.Proof.LibOnlineSoftmax

noncomputable section

open scoped BigOperators
open Finset

namespace Cert.FlashMath

open Idealize.ShloMosaic
open Cert.Spec
open Cert.LibOnlineSoftmax

variable (sc xv g f : Fin 2048 → ℝ)

def xAt (i : ℕ) : ℝ := if h : i < 2048 then f ⟨i, h⟩ else 0

def ew (M : ℝ) (t : Fin 2048) : ℝ := Real.exp (sc t - M) * g t

theorem xAt_shift (M M' : ℝ) (i : ℕ) :
    Real.exp (M - M') * xAt (ew sc g M) i = xAt (ew sc g M') i := by
  unfold xAt ew
  by_cases h : i < 2048
  · rw [dif_pos h, dif_pos h, ← mul_assoc, exp_shift_mul]
  · rw [dif_neg h, dif_neg h, mul_zero]

theorem sum_xAt_full : ∑ i ∈ range 2048, xAt f i = ∑ t : Fin 2048, f t := by
  rw [Finset.sum_range]
  exact Finset.sum_congr rfl (fun t _ => dif_pos t.isLt)

theorem dite_coe (k : ℕ) :
    (if h : k < 2048 then ((f ⟨k, h⟩ : ℝ) : EReal) else 0) = ((xAt f k : ℝ) : EReal) := by
  unfold xAt
  by_cases h : k < 2048
  · rw [dif_pos h, dif_pos h]
  · rw [dif_neg h, dif_neg h, EReal.coe_zero]

theorem tileAt_coe (v : ℕ) (j : Fin 256) :
    tileAt (fun t => ((f t : ℝ) : EReal)) v j = ((xAt f (256 * v + j.val) : ℝ) : EReal) :=
  dite_coe f _

theorem exists_tileMax (v : ℕ) :
    ∃ c : ℝ, (univ : Finset (Fin 256)).fold max ⊥ (tileAt (fun t => ((f t : ℝ) : EReal)) v) = (c : EReal) := by
  rw [funext (tileAt_coe f v)]
  exact exists_fold_max_bot_coe univ ⟨0, mem_univ _⟩ _

theorem tile_sum_e {v : ℕ} (hv : v < 8) (M : ℝ) :
    ∑ j : Fin 256, Ideal.exp (tileAt (fun t => ((sc t : ℝ) : EReal)) v j - (M : EReal))
      = ((∑ j ∈ range 256, xAt (ew sc (fun _ => 1) M) (256 * v + j) : ℝ) : EReal) := by
  rw [Finset.sum_range, coe_finset_sum]
  refine Finset.sum_congr rfl (fun j _ => ?_)
  have h : 256 * v + j.val < 2048 := by have := j.isLt; omega
  unfold tileAt xAt ew
  rw [dif_pos h, dif_pos h, ideal_exp_sub_coe, mul_one]

theorem tile_sum_w {v : ℕ} (hv : v < 8) (M : ℝ) :
    ∑ j : Fin 256, Ideal.exp (tileAt (fun t => ((sc t : ℝ) : EReal)) v j - (M : EReal))
        * tileAt (fun t => ((xv t : ℝ) : EReal)) v j
      = ((∑ j ∈ range 256, xAt (ew sc xv M) (256 * v + j) : ℝ) : EReal) := by
  rw [Finset.sum_range, coe_finset_sum]
  refine Finset.sum_congr rfl (fun j _ => ?_)
  have h : 256 * v + j.val < 2048 := by have := j.isLt; omega
  unfold tileAt xAt ew
  rw [dif_pos h, dif_pos h, dif_pos h, ideal_exp_sub_coe, ← EReal.coe_mul]

/-- Rescaling the running sum to the new maximum and adding the tile's terms extends it from 256 v to 256 (v + 1) entries. -/
theorem step (v : ℕ) (M' : ℝ) (m l T : EReal)
    (hT : T = ((∑ j ∈ range 256, xAt (ew sc g M') (256 * v + j) : ℝ) : EReal))
    (h : (l = 0 ∧ v = 0) ∨ ∃ M : ℝ, m = (M : EReal) ∧ l = ((∑ i ∈ range (256 * v), xAt (ew sc g M) i : ℝ) : EReal)) :
    Ideal.exp (m - (M' : EReal)) * l + T = ((∑ i ∈ range (256 * (v + 1)), xAt (ew sc g M') i : ℝ) : EReal) := by
  rw [hT, Nat.mul_succ, Finset.sum_range_add, EReal.coe_add]
  congr 1
  rcases h with ⟨rfl, rfl⟩ | ⟨M, rfl, rfl⟩
  · rw [mul_zero]; simp
  · rw [ideal_exp_sub_coe, ← EReal.coe_mul, Finset.mul_sum]
    exact congrArg Real.toEReal (Finset.sum_congr rfl (fun i _ => xAt_shift sc g M M' i))

theorem stats_inv : ∀ v : ℕ, v < 8 → ∃ M : ℝ,
    (stats (fun t => ((sc t : ℝ) : EReal)) (fun t => ((xv t : ℝ) : EReal)) (v + 1)).1 = (M : EReal) ∧
    (stats (fun t => ((sc t : ℝ) : EReal)) (fun t => ((xv t : ℝ) : EReal)) (v + 1)).2.1
      = ((∑ i ∈ range (256 * (v + 1)), xAt (ew sc (fun _ => 1) M) i : ℝ) : EReal) ∧
    (stats (fun t => ((sc t : ℝ) : EReal)) (fun t => ((xv t : ℝ) : EReal)) (v + 1)).2.2
      = ((∑ i ∈ range (256 * (v + 1)), xAt (ew sc xv M) i : ℝ) : EReal) := by
  intro v
  induction v with
  | zero =>
    intro hv
    obtain ⟨c, hc⟩ := exists_tileMax sc 0
    refine ⟨c, ?_, ?_, ?_⟩ <;> rw [stats_succ] <;> simp only [stats_zero, hc, max_bot_left]
    · exact step sc _ 0 c _ _ _ (tile_sum_e sc hv c) (Or.inl ⟨rfl, rfl⟩)
    · exact step sc xv 0 c _ _ _ (tile_sum_w sc xv hv c) (Or.inl ⟨rfl, rfl⟩)
  | succ v ih =>
    intro hv
    obtain ⟨M, h1, h2, h3⟩ := ih (by omega)
    obtain ⟨c, hc⟩ := exists_tileMax sc (v + 1)
    refine ⟨max M c, ?_, ?_, ?_⟩ <;> rw [stats_succ, h1, hc, ← coe_max]
    · exact step sc _ (v + 1) (max M c) _ _ _ (tile_sum_e sc hv _) (Or.inr ⟨M, rfl, h2⟩)
    · exact step sc xv (v + 1) (max M c) _ _ _ (tile_sum_w sc xv hv _) (Or.inr ⟨M, rfl, h3⟩)

theorem stats_last : ∃ M : ℝ,
    (stats (fun t => ((sc t : ℝ) : EReal)) (fun t => ((xv t : ℝ) : EReal)) 8).2.1
      = ((∑ t : Fin 2048, Real.exp (sc t - M) : ℝ) : EReal) ∧
    (stats (fun t => ((sc t : ℝ) : EReal)) (fun t => ((xv t : ℝ) : EReal)) 8).2.2
      = ((∑ t : Fin 2048, Real.exp (sc t - M) * xv t : ℝ) : EReal) := by
  obtain ⟨M, _, h2, h3⟩ := stats_inv sc xv 7 (by omega)
  exact ⟨M, h2.trans (congrArg Real.toEReal ((sum_xAt_full _).trans (Finset.sum_congr rfl (fun t _ => mul_one _)))),
    h3.trans (congrArg Real.toEReal (sum_xAt_full _))⟩

theorem blkAt_coe (v : ℕ) (r : Fin 512) :
    blkAt (fun t => ((f t : ℝ) : EReal)) v r = ((xAt f (512 * v + r.val) : ℝ) : EReal) :=
  dite_coe f _

theorem colSum_inv : ∀ v : ℕ,
    colSum (fun t => ((xv t : ℝ) : EReal)) v = ((∑ i ∈ range (512 * v), xAt xv i : ℝ) : EReal) := by
  intro v
  induction v with
  | zero => rw [colSum_zero]; simp
  | succ v ih =>
    rw [colSum_succ, ih, Nat.mul_succ, Finset.sum_range_add, EReal.coe_add]
    congr 1
    rw [Finset.sum_range, coe_finset_sum]
    exact Finset.sum_congr rfl (fun r _ => blkAt_coe xv v r)

theorem meanOf_coe :
    meanOf (fun t => ((xv t : ℝ) : EReal)) = (((∑ t : Fin 2048, xv t) * (1 / 2048) : ℝ) : EReal) := by
  unfold meanOf
  rw [colSum_inv xv 4, show 512 * 4 = 2048 from rfl, sum_xAt_full, ← EReal.coe_mul]

theorem two_coe : (2 : EReal) = ((2 : ℝ) : EReal) := by norm_cast

def dl (s t : Fin 2048) : ℝ := if s = t then 1 else 0

def sm (R : ℝ) (t : Fin 2048) : ℝ :=
  Real.exp (sc t - R) / ∑ t' : Fin 2048, Real.exp (sc t' - R)

theorem exists_rowMax : ∃ R : ℝ, rowMax (fun t => ((sc t : ℝ) : EReal)) = (R : EReal) := by
  obtain ⟨c, hc⟩ := exists_fold_max_bot_coe (univ : Finset (Fin 2048)) ⟨0, Finset.mem_univ _⟩ sc
  exact ⟨c, by unfold rowMax; rw [hc]; exact max_eq_right bot_le⟩

theorem blend_coe (R : ℝ) (hR : rowMax (fun t => ((sc t : ℝ) : EReal)) = (R : EReal))
    (s t : Fin 2048) : blend (fun t => ((sc t : ℝ) : EReal)) s t = ((dl s t + sm sc R t : ℝ) : EReal) := by
  unfold blend soft eye dl sm
  rw [hR, sum_ideal_exp_sub_coe, ideal_exp_sub_coe,
    ideal_div_coe _ _ (sum_exp_pos sc univ ⟨t, Finset.mem_univ t⟩ R).ne', one_mul, EReal.coe_add,
    apply_ite Real.toEReal, EReal.coe_one, EReal.coe_zero]

theorem refRow_coe (R : ℝ) (hR : rowMax (fun t => ((sc t : ℝ) : EReal)) = (R : EReal))
    (s : Fin 2048) :
    refRow (fun t => ((sc t : ℝ) : EReal)) (fun t => ((xv t : ℝ) : EReal)) s
      = ((∑ t : Fin 2048, ((dl s t + sm sc R t) - (∑ t' : Fin 2048, (dl s t' + sm sc R t')) / 2048) * xv t : ℝ) : EReal) := by
  have hsum : ∑ t' : Fin 2048, blend (fun t => ((sc t : ℝ) : EReal)) s t'
      = ((∑ t' : Fin 2048, (dl s t' + sm sc R t') : ℝ) : EReal) := by
    rw [coe_finset_sum]; exact Finset.sum_congr rfl (fun t _ => blend_coe sc R hR s t)
  unfold refRow
  rw [hsum, ideal_div_coe _ _ (by norm_num : (2048 : ℝ) ≠ 0), one_mul, coe_finset_sum]
  refine Finset.sum_congr rfl (fun t _ => ?_)
  rw [blend_coe sc R hR, ← EReal.coe_sub, ← EReal.coe_mul]

theorem sum_dl (s : Fin 2048) : ∑ t : Fin 2048, dl s t = 1 := by
  unfold dl
  rw [Finset.sum_ite_eq, if_pos (Finset.mem_univ s)]

theorem sum_dl_mul (s : Fin 2048) : ∑ t : Fin 2048, dl s t * xv t = xv s := by
  unfold dl
  simp only [ite_mul, one_mul, zero_mul]
  rw [Finset.sum_ite_eq, if_pos (Finset.mem_univ s)]

theorem sum_sm (R : ℝ) : ∑ t : Fin 2048, sm sc R t = 1 := by
  unfold sm
  rw [← Finset.sum_div, div_self (sum_exp_pos sc univ ⟨0, Finset.mem_univ _⟩ R).ne']

theorem quot_eq (M R : ℝ) :
    (∑ t : Fin 2048, Real.exp (sc t - M) * xv t) / (∑ t : Fin 2048, Real.exp (sc t - M))
      = ∑ t : Fin 2048, sm sc R t * xv t := by
  rw [Finset.sum_div]
  refine Finset.sum_congr rfl (fun t _ => ?_)
  unfold sm
  rw [mul_div_right_comm, softmax_shift sc univ M R t]

theorem real_eq (M R : ℝ) (s : Fin 2048) :
    xv s + (∑ t : Fin 2048, Real.exp (sc t - M) * xv t) / (∑ t : Fin 2048, Real.exp (sc t - M))
        - 2 * ((∑ t : Fin 2048, xv t) * (1 / 2048))
      = ∑ t : Fin 2048, ((dl s t + sm sc R t) - (∑ t' : Fin 2048, (dl s t' + sm sc R t')) / 2048) * xv t := by
  rw [Finset.sum_add_distrib, sum_dl, sum_sm, quot_eq sc xv M R]
  have h : ∀ t : Fin 2048, ((dl s t + sm sc R t) - (1 + 1) / 2048) * xv t
      = dl s t * xv t + sm sc R t * xv t - (1 + 1) / 2048 * xv t := fun t => by ring
  rw [Finset.sum_congr rfl (fun t _ => h t), Finset.sum_sub_distrib, Finset.sum_add_distrib, ← Finset.mul_sum,
    sum_dl_mul]
  ring

theorem row_eq (s : Fin 2048) :
    Cert.Spec.kerRow (fun t => ((sc t : ℝ) : EReal)) (fun t => ((xv t : ℝ) : EReal)) ((xv s : ℝ) : EReal) (Cert.Spec.meanOf (fun t => ((xv t : ℝ) : EReal)))
      = Cert.Spec.refRow (fun t => ((sc t : ℝ) : EReal)) (fun t => ((xv t : ℝ) : EReal)) s := by
  obtain ⟨M, hl, ha⟩ := stats_last sc xv
  obtain ⟨R, hR⟩ := exists_rowMax sc
  unfold kerRow
  rw [meanOf_coe, hl, ha, ideal_div_coe _ _ (sum_exp_pos sc univ ⟨s, Finset.mem_univ s⟩ M).ne', one_mul, two_coe,
    ← EReal.coe_mul, ← EReal.coe_add, ← EReal.coe_sub, refRow_coe sc xv R hR s, real_eq sc xv M R s]

end Cert.FlashMath

end
-- ==== Proof.Bridge.lean ====
import proofs.«401480_j41566693490738_3_alg».proof.Proof.FlashMath

namespace Cert.Bridge

open Idealize.ShloMosaic Idealize.ShloMosaic.ValueIdx
open Cert.Spec
open Cert.LibOnlineSoftmax

variable {ι : Type*}

theorem real_mul {a b : EReal} (ha : ∃ r : ℝ, a = r) (hb : ∃ r : ℝ, b = r) : ∃ r : ℝ, a * b = r := by
  obtain ⟨p, rfl⟩ := ha
  obtain ⟨q, rfl⟩ := hb
  exact ⟨p * q, (EReal.coe_mul p q).symm⟩

theorem real_sum (f : ι → EReal) (s : Finset ι) (h : ∀ i, ∃ r : ℝ, f i = r) : ∃ r : ℝ, ∑ i ∈ s, f i = r := by
  choose g hg using h
  exact ⟨∑ i ∈ s, g i, by rw [coe_finset_sum]; exact Finset.sum_congr rfl (fun i _ => hg i)⟩

/-- Sums and products of real entries stay real, so every score is a real number. -/
theorem real_proj {x : SX.Idx → EReal} {w : SW.Idx → EReal} {bias : SB.Idx → EReal} (hx : ∀ i, ∃ r : ℝ, x i = r)
    (hw : ∀ i, ∃ r : ℝ, w i = r) (hb : ∀ i, ∃ r : ℝ, bias i = r) (b : Fin 4) (s : Fin 2048) (e : Fin 1024) :
    ∃ r : ℝ, proj x w bias b s e = r := by
  obtain ⟨p, hp⟩ := real_sum _ Finset.univ (fun d => real_mul (hx (ix3 b s d)) (hw (ix2 e d)))
  obtain ⟨q, hq⟩ := hb (ix1 e)
  exact ⟨p + q, by unfold proj; rw [hp, hq, EReal.coe_add]⟩

theorem out_eq (x : Cert.Spec.SX.Idx → EReal) (wq : Cert.Spec.SW.Idx → EReal) (bq : Cert.Spec.SB.Idx → EReal) (wk : Cert.Spec.SW.Idx → EReal) (bk : Cert.Spec.SB.Idx → EReal)
    (hx : ∀ i, ∃ r : ℝ, x i = (r : EReal)) (hwq : ∀ i, ∃ r : ℝ, wq i = (r : EReal)) (hbq : ∀ i, ∃ r : ℝ, bq i = (r : EReal)) (hwk : ∀ i, ∃ r : ℝ, wk i = (r : EReal)) (hbk : ∀ i, ∃ r : ℝ, bk i = (r : EReal))
    (b : Fin 4) (s : Fin 2048) (d : Fin 1024) : Cert.Spec.kerOut x wq bq wk bk b s d = Cert.Spec.refOut x wq bq wk bk b s d := by
  choose r hr using fun t => real_sum _ Finset.univ
    (fun e => real_mul (real_proj hx hwq hbq b s e) (real_proj hx hwk hbk b t e))
  choose xr hxr using fun t => hx (ix3 b t d)
  unfold kerOut refOut kerScore refScore rawScore
  simp only [hr, hxr, Ideal.div_coe (show (32 : ℝ) ≠ 0 by norm_num), ← EReal.coe_mul]
  exact Cert.FlashMath.row_eq (fun t => r t * (1 / 32)) xr s

end Cert.Bridge
-- ==== Proof.Finite.lean ====
import Idealize.ShloMosaic.Lib.ValueIdx
import Idealize.ShloMosaic.Lib.ReduceAll
import proofs.«401480_j41566693490738_3_alg».proof.Defs

namespace Cert.Finite

open Idealize.ShloMosaic Idealize.SL.Sem
open Cert.Pre_finite_inputs

instance : Subsingleton S_.Idx := ⟨fun a b => funext fun d => d.elim0⟩

/-- An extended real whose absolute value is below +∞ is neither infinity, hence a real number. -/
theorem elem_real (x : EReal)
    (h : Ideal.cmp .olt (max x (-x)) (Ideal.ofBits .f32 0x7F800000#32) = 1#1) : ∃ r : ℝ, x = (r : EReal) := by
  rw [show Ideal.ofBits .f32 0x7F800000#32 = ⊤ by simp [Ideal.ofBits, Ideal.ieee]] at h
  unfold Ideal.cmp at h
  induction x using EReal.rec with
  | bot => simp at h
  | coe r => exact ⟨r, rfl⟩
  | top => simp at h

theorem all_real {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf x) (broadcastInDim s ![] hb (constant (F := Ideal) S_ .f32 0x7F800000#32)))
        init hr hu ValueIdx.ix0 = 1#1) (i : s.Idx) : ∃ r : ℝ, x i = (r : EReal) :=
  elem_real (x i) (Host.reduce_andi_all _ init hr hu ValueIdx.ix0 e i)

theorem of_pre [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal)) := by
  have h0 := congrFun (h c) ValueIdx.ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨all_real _ _ _ _ _ e0, all_real _ _ _ _ _ e1, all_real _ _ _ _ _ e2, all_real _ _ _ _ _ e3,
    all_real _ _ _ _ _ e4⟩

end Cert.Finite
-- ==== Proof.lean ====
/-
  On finite inputs both programs compute, entry by entry,
      x b s d + ∑ₜ softmax (q b s · k b t / 32) · x b t d − 2 · (mean over t of x b t d):
  every row of "identity plus softmax" sums to 2, so the reference's row centring subtracts the constant 2/2048.
-/
import proofs.«401480_j41566693490738_3_alg».proof.Defs
import proofs.«401480_j41566693490738_3_alg».proof.Proof.Gen.Kernel
import proofs.«401480_j41566693490738_3_alg».proof.Proof.Gen.KernelIdeal
import proofs.«401480_j41566693490738_3_alg».proof.Proof.Gen.ReferenceIdeal
import proofs.«401480_j41566693490738_3_alg».proof.Proof.Gen.Pre_finite_inputs
import proofs.«401480_j41566693490738_3_alg».proof.Proof.Gen.ReferenceIdeal.Run
import proofs.«401480_j41566693490738_3_alg».proof.Proof.Gen.ReferenceIdeal.Read
import proofs.«401480_j41566693490738_3_alg».proof.Proof.KWhole
import proofs.«401480_j41566693490738_3_alg».proof.Proof.Whole
import proofs.«401480_j41566693490738_3_alg».proof.Proof.KernelValue
import proofs.«401480_j41566693490738_3_alg».proof.Proof.RefValue
import proofs.«401480_j41566693490738_3_alg».proof.Proof.Bridge
import proofs.«401480_j41566693490738_3_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => fun i => Cert.Spec.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (i 0) (i 1) (i 2), ?_, ?_⟩
  · refine (θ_run Cert.KernelIdeal.defs _ _).mono (fun _ h c => ⟨(h c).1.trans ?_, (h c).2⟩) (Cert.KernelIdeal.Hand.run_result (F := Ideal) m ρ)
    funext i
    obtain ⟨b, s, d, rfl⟩ : ∃ (b : Fin 4) (s : Fin 2048) (d : Fin 1024), i = ix3 b s d := ⟨i 0, i 1, i 2, eq_ix3 i⟩
    obtain ⟨h0, h1, h2, h3, h4⟩ := Cert.Finite.of_pre m hpre c
    exact (Cert.KernelIdeal.Hand.kernel_value m c b s d).trans (Cert.Bridge.out_eq _ _ _ _ _ h0 h1 h2 h3 h4 b s d)
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v41_eq, (hagree c).1, (hagree c).2.1, (hagree c).2.2.1, (hagree c).2.2.2.1, (hagree c).2.2.2.2]
    funext i
    obtain ⟨b, s, d, rfl⟩ : ∃ (b : Fin 4) (s : Fin 2048) (d : Fin 1024), i = ix3 b s d := ⟨i 0, i 1, i 2, eq_ix3 i⟩
    exact Cert.RefValue.result_at _ _ _ _ _ b s d

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
